-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S2048 : Shape := ⟨1, ![2048]⟩
abbrev S8192x2048 : Shape := ⟨2, ![8192, 2048]⟩
abbrev S512x1024 : Shape := ⟨2, ![512, 1024]⟩
abbrev S512x2048 : Shape := ⟨2, ![512, 2048]⟩
abbrev S1x2048 : Shape := ⟨2, ![1, 2048]⟩
abbrev S4x2048x2048 : Shape := ⟨3, ![4, 2048, 2048]⟩
abbrev S1x1024x1024 : Shape := ⟨3, ![1, 1024, 1024]⟩
abbrev S1x512x1024 : Shape := ⟨3, ![1, 512, 1024]⟩
abbrev S1x1024x1 : Shape := ⟨3, ![1, 1024, 1]⟩
abbrev S1x1024 : Shape := ⟨2, ![1, 1024]⟩
abbrev S1x1024x512 : Shape := ⟨3, ![1, 1024, 512]⟩

abbrev nBuf : Space → Nat
  | .hbm => 23
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024x1024, .bf16⟩
  | .hbm, ⟨16, _⟩ => ⟨S2048x1024, .f32⟩
  | .hbm, ⟨17, _⟩ => ⟨S1024x2048, .f32⟩
  | .hbm, ⟨18, _⟩ => ⟨S1024x2048, .bf16⟩
  | .hbm, ⟨19, _⟩ => ⟨S2048, .f32⟩
  | .hbm, ⟨20, _⟩ => ⟨S8192x2048, .bf16⟩
  | .hbm, ⟨21, _⟩ => ⟨S4x2048x2048, .bf16⟩
  | .hbm, ⟨22, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S2048, .f32⟩
  | .local _ .vmem, ⟨4, _⟩ => ⟨S512x2048, .bf16⟩
  | .local _ .vmem, ⟨5, _⟩ => ⟨S512x2048, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .bf16⟩
  | .local _ .vmem, ⟨9, _⟩ => ⟨S1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1x1024x1, .f32⟩
  | .local _ .vmem, ⟨17, _⟩ => ⟨S1x1024x1, .f32⟩
  | .local _ .vmem, ⟨18, _⟩ => ⟨S1x1024x1024, .f32⟩
  | .local _ .vmem, ⟨19, _⟩ => ⟨S1x1024x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_33 : BitVec 32 := 0#32
  let v41 : BitVec 1 := Scalar.cmpi .ne v40 c0_i32_33
  v41

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x1024_S8192x1024 : S4x2048x1024.ShapeCasts S8192x1024
  bcast_S_S1024x1024 : S_.BroadcastsInDim S1024x1024 (![] : Fin 0 → Fin S1024x1024.rank)
  bcast_S_S1024 : S_.BroadcastsInDim S1024 (![] : Fin 0 → Fin S1024.rank)
  transposes_S1024x1024_S1024x1024_1_0 : S1024x1024.Transposes [1, 0] S1024x1024
  bitsLt_bf16_f32 : FTy.bits .bf16 < FTy.bits .f32
  concatenates_S1024x1024_S1024x1024_S2048x1024_d0 : Shape.Concatenates [S1024x1024, S1024x1024] S2048x1024 0
  transposes_S2048x1024_S1024x2048_1_0 : S2048x1024.Transposes [1, 0] S1024x2048
  concatenates_S1024_S1024_S2048_d0 : Shape.Concatenates [S1024, S1024] S2048 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  shapeCasts_S8192x2048_S4x2048x2048 : S8192x2048.ShapeCasts S4x2048x2048
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x1024x512_S1x1024 : S1x1024x512.Reduces [2] S1x1024
  shapeCasts_S1x1024_S1x1024x1 : S1x1024.ShapeCasts S1x1024x1
  broadcasts_S1x1024x1_S1x1024x512 : S1x1024x1.Broadcasts S1x1024x512
  broadcasts_S1x1024x1_S1x1024x1024 : S1x1024x1.Broadcasts S1x1024x1024
  dot_S512x1024_S1024x2048_S512x2048_1_0_0_1_n_n_wf : DotDims.WF S512x1024 S1024x2048 S512x2048 [1] [0] [0] [1] [] []
  dot_S1024x1024_S1024x1024_S1024x1024_1_0_0_1_n_n_wf : DotDims.WF S1024x1024 S1024x1024 S1024x1024 [1] [0] [0] [1] [] []
  dot_S1x1024x1024_S1x512x1024_S1x1024x512_2_2_1_1_0_0_wf : DotDims.WF S1x1024x1024 S1x512x1024 S1x1024x512 [2] [2] [1] [1] [0] [0]
  dot_S1x1024x512_S1x512x1024_S1x1024x1024_2_1_1_2_0_0_wf : DotDims.WF S1x1024x512 S1x512x1024 S1x1024x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .bf16 = 32 ∨ (Rect.block (s := S8192x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .f32 = 32 ∨ (Rect.block (s := S4x2048x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x2048.size a
  hwx1_3 : ∀ i : grid1.Coords, EltTy.bits .bf16 = 32 ∨ (Rect.block (s := S4x2048x2048) S1x512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x2048x2048.size a
  hwx1_4 : ∀ i : grid1.Coords, EltTy.bits .bf16 = 32 ∨ (Rect.block (s := S4x2048x2048) S1x512x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S4x2048x1024.size a
  hwx1_5 : ∀ i : grid1.Coords, EltTy.bits .f32 = 32 ∨ (Rect.block (s := S4x2048x1024) S1x1024x1024.size (cc1_transform_5 i) (hinb1_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1x1024x1024_S1x512x1024_S1x1024x512_2_2_1_1_0_0 : DotDims S1x1024x1024 S1x512x1024 S1x1024x512 where
  lhsContracting := [2]
  rhsContracting := [2]
  lhsNonContracting := [1]
  rhsNonContracting := [1]
  lhsBatch := [0]
  rhsBatch := [0]
  wf := dot_S1x1024x1024_S1x512x1024_S1x1024x512_2_2_1_1_0_0_wf
def dot_S1x1024x512_S1x512x1024_S1x1024x1024_2_1_1_2_0_0 : DotDims S1x1024x512 S1x512x1024 S1x1024x1024 where
  lhsContracting := [2]
  rhsContracting := [1]
  lhsNonContracting := [1]
  rhsNonContracting := [2]
  lhsBatch := [0]
  rhsBatch := [0]
  wf := dot_S1x1024x512_S1x512x1024_S1x1024x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
import Idealize.ShloMosaic.PureOps.Ideal
import Idealize.ShloMosaic.Lib.ValueIdx
import Mathlib.Analysis.SpecialFunctions.Exp

noncomputable section

open scoped BigOperators

namespace Cert.Attn

open Idealize.ShloMosaic

def up1 {a : Nat} (f : Fin a → ℝ) : (⟨1, ![a]⟩ : Shape).Idx → EReal := fun i => ((f (i 0) : ℝ) : EReal)

def up2 {a b : Nat} (f : Fin a → Fin b → ℝ) : (⟨2, ![a, b]⟩ : Shape).Idx → EReal := fun i => ((f (i 0) (i 1) : ℝ) : EReal)

def up3 {a b c : Nat} (f : Fin a → Fin b → Fin c → ℝ) : (⟨3, ![a, b, c]⟩ : Shape).Idx → EReal :=
  fun i => ((f (i 0) (i 1) (i 2) : ℝ) : EReal)

def proj (x : Fin 4 → Fin 2048 → Fin 1024 → ℝ) (W : Fin 1024 → Fin 1024 → ℝ) (b : Fin 1024 → ℝ)
    (n : Fin 4) (s : Fin 2048) (f : Fin 1024) : ℝ := (∑ e, x n s e * W f e) + b f

def score (Q K : Fin 4 → Fin 2048 → Fin 1024 → ℝ) (n : Fin 4) (q k : Fin 2048) : ℝ :=
  (∑ d, Q n q d * K n k d) / 32

def attend (S : Fin 4 → Fin 2048 → Fin 2048 → ℝ) (V : Fin 4 → Fin 2048 → Fin 1024 → ℝ)
    (n : Fin 4) (q : Fin 2048) (d : Fin 1024) : ℝ :=
  ∑ k, (Real.exp (S n q k) / ∑ k', Real.exp (S n q k')) * V n k d

def attn (x : Fin 4 → Fin 2048 → Fin 1024 → ℝ) (Wq : Fin 1024 → Fin 1024 → ℝ) (bq : Fin 1024 → ℝ)
    (Wk : Fin 1024 → Fin 1024 → ℝ) (bk : Fin 1024 → ℝ) (Wv : Fin 1024 → Fin 1024 → ℝ) (bv : Fin 1024 → ℝ)
    (n : Fin 4) (q : Fin 2048) (d : Fin 1024) : ℝ :=
  attend (score (proj x Wq bq) (proj x Wk bk)) (proj x Wv bv) n q d

def flash (x : Fin 4 → Fin 2048 → Fin 1024 → ℝ) (Wt : Fin 1024 → Fin 1024 → ℝ) (bs : Fin 1024 → ℝ)
    (kv : Fin 4 → Fin 2048 → Fin 2048 → ℝ) (n : Fin 4) (q : Fin 2048) (d : Fin 1024) : ℝ :=
  attend (fun n q k => ∑ f : Fin 1024, ((∑ e, x n q e * Wt e f) + bs f) * kv n k (Fin.castAdd 1024 f))
    (fun n k d => kv n k (Fin.natAdd 1024 d)) n q d

def kvproj (x2 : Fin 8192 → Fin 1024 → ℝ) (Wkv : Fin 1024 → Fin 2048 → ℝ) (bkv : Fin 2048 → ℝ)
    (r : Fin 8192) (j : Fin 2048) : ℝ := (∑ e, x2 r e * Wkv e j) + bkv j

def x2R (x : Fin 4 → Fin 2048 → Fin 1024 → ℝ) : Fin 8192 → Fin 1024 → ℝ :=
  fun r e => x ⟨r.val / 2048, by have := r.isLt; omega⟩ ⟨r.val % 2048, Nat.mod_lt _ (by norm_num)⟩ e

def WkvR (Wk Wv : Fin 1024 → Fin 1024 → ℝ) : Fin 1024 → Fin 2048 → ℝ :=
  fun e j => if h : j.val < 1024 then Wk ⟨j.val, h⟩ e else Wv ⟨j.val - 1024, by have := j.isLt; omega⟩ e

def bkvR (bk bv : Fin 1024 → ℝ) : Fin 2048 → ℝ :=
  fun j => if h : j.val < 1024 then bk ⟨j.val, h⟩ else bv ⟨j.val - 1024, by have := j.isLt; omega⟩

def WqtR (Wq : Fin 1024 → Fin 1024 → ℝ) : Fin 1024 → Fin 1024 → ℝ := fun e f => Wq f e * (1 / 32)

def bqsR (bq : Fin 1024 → ℝ) : Fin 1024 → ℝ := fun f => bq f * (1 / 32)

def kv3R (kv2 : Fin 8192 → Fin 2048 → ℝ) : Fin 4 → Fin 2048 → Fin 2048 → ℝ :=
  fun n s j => kv2 ⟨n.val * 2048 + s.val, by have := n.isLt; have := s.isLt; omega⟩ j

end Cert.Attn

end
-- ==== Proof.Finite.lean ====
import proofs.«424806_j56435870269801_3_alg».proof.Defs
import proofs.«424806_j56435870269801_3_alg».proof.Proof.Gen.Pre_finite_inputs
import proofs.«424806_j56435870269801_3_alg».proof.Proof.Spec
import Idealize.ShloMosaic.Lib.ReduceAll

noncomputable section

namespace Cert.Finite

open Idealize.ShloMosaic Cert.Pre_finite_inputs

instance : Subsingleton S_.Idx := ⟨fun a b => funext fun d => d.elim0⟩

theorem top_bits : Ideal.ofBits .f32 0x7F800000#32 = (⊤ : EReal) := by
  simp [Ideal.ofBits, Ideal.ieee]

theorem real_of_abs_lt (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf a) (broadcastInDim s ![] hb (constant (F := Ideal) S_ .f32 0x7F800000#32))) init hr hu
        ValueIdx.ix0 = 1#1)
    (i : s.Idx) : ∃ r : ℝ, a i = (r : EReal) := by
  have e := Host.reduce_andi_all _ _ hr hu _ h i
  have e' : Ideal.cmp .olt (max (a i) (-(a i))) (Ideal.ofBits .f32 0x7F800000#32) = 1#1 := e
  rw [top_bits] at e'
  exact real_of_abs_lt (a i) e'

theorem reals_of_pre [Cert.Pre_finite_inputs.Facts]
    (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = (fun _ => 1#1)) :
    ∃ (x : Fin 4 → Fin 2048 → Fin 1024 → ℝ) (Wq : Fin 1024 → Fin 1024 → ℝ) (bq : Fin 1024 → ℝ)
      (Wk : Fin 1024 → Fin 1024 → ℝ) (bk : Fin 1024 → ℝ) (Wv : Fin 1024 → Fin 1024 → ℝ) (bv : Fin 1024 → ℝ),
      a0 = Cert.Attn.up3 x ∧ a1 = Cert.Attn.up2 Wq ∧ a2 = Cert.Attn.up1 bq ∧ a3 = Cert.Attn.up2 Wk
        ∧ a4 = Cert.Attn.up1 bk ∧ a5 = Cert.Attn.up2 Wv ∧ a6 = Cert.Attn.up1 bv := by
  have h' := congrFun h ValueIdx.ix0
  dsimp only [Cert.Pre_finite_inputs.fn, Cert.Pre_finite_inputs.fn_part1, andi] at h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  choose f0 e0 using all_real a0 _ _ _ _ h0
  choose f1 e1 using all_real a1 _ _ _ _ h1
  choose f2 e2 using all_real a2 _ _ _ _ h2
  choose f3 e3 using all_real a3 _ _ _ _ h3
  choose f4 e4 using all_real a4 _ _ _ _ h4
  choose f5 e5 using all_real a5 _ _ _ _ h5
  choose f6 e6 using all_real a6 _ _ _ _ h6
  refine ⟨fun n s e => f0 (ValueIdx.ix3 n s e), fun f e => f1 (ValueIdx.ix2 f e), fun f => f2 (ValueIdx.ix1 f),
    fun f e => f3 (ValueIdx.ix2 f e), fun f => f4 (ValueIdx.ix1 f), fun f e => f5 (ValueIdx.ix2 f e),
    fun f => f6 (ValueIdx.ix1 f), ?_, ?_, ?_, ?_, ?_, ?_, ?_⟩
  · funext i
    rw [e0 i]
    exact congrArg (fun j => ((f0 j : ℝ) : EReal)) (ValueIdx.eq_ix3 i)
  · funext i
    rw [e1 i]
    exact congrArg (fun j => ((f1 j : ℝ) : EReal)) (ValueIdx.eq_ix2 i)
  · funext i
    rw [e2 i]
    exact congrArg (fun j => ((f2 j : ℝ) : EReal)) (ValueIdx.eq_ix1 i)
  · funext i
    rw [e3 i]
    exact congrArg (fun j => ((f3 j : ℝ) : EReal)) (ValueIdx.eq_ix2 i)
  · funext i
    rw [e4 i]
    exact congrArg (fun j => ((f4 j : ℝ) : EReal)) (ValueIdx.eq_ix1 i)
  · funext i
    rw [e5 i]
    exact congrArg (fun j => ((f5 j : ℝ) : EReal)) (ValueIdx.eq_ix2 i)
  · funext i
    rw [e6 i]
    exact congrArg (fun j => ((f6 j : ℝ) : EReal)) (ValueIdx.eq_ix1 i)

end Cert.Finite

end
-- ==== Proof.Ref.lean ====
import proofs.«424806_j56435870269801_3_alg».proof.Proof.Gen.ReferenceIdeal.Run
import proofs.«424806_j56435870269801_3_alg».proof.Proof.Gen.ReferenceIdeal.Read
import proofs.«424806_j56435870269801_3_alg».proof.Proof.Spec

noncomputable section

namespace Cert.ReferenceIdeal.RefValue

open Idealize.ShloMosaic Idealize.ShloMosaic.TcCoe Idealize.SL.Sem
open Cert.Attn Cert.ReferenceIdeal Cert.ReferenceIdeal.Read
open scoped BigOperators

theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem ofBits_1024 : Ideal.ofBits .f32 0x44800000#32 = ((1024 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_zero : Ideal.ofBits .f32 0x00000000#32 = 0 := by
  simp [Ideal.ofBits, Ideal.ieee]

theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

variable (x : Fin 4 → Fin 2048 → Fin 1024 → ℝ) (Wq : Fin 1024 → Fin 1024 → ℝ) (bq : Fin 1024 → ℝ)
  (Wk : Fin 1024 → Fin 1024 → ℝ) (bk : Fin 1024 → ℝ) (Wv : Fin 1024 → Fin 1024 → ℝ) (bv : Fin 1024 → ℝ)

/-- A linear projection of real arrays is the real projection. -/
theorem proj_coe (W : Fin 1024 → Fin 1024 → ℝ) (b : Fin 1024 → ℝ) (i : S4x2048x1024.Idx) :
    (∑ k : Fin 1024, ((x (i 0) (i 1) k : ℝ) : EReal) * ((W (i 2) k : ℝ) : EReal)) + ((b (i 2) : ℝ) : EReal)
      = ((proj x W b (i 0) (i 1) (i 2) : ℝ) : EReal) := by
  simp only [← EReal.coe_mul]
  rw [coe_sum, ← EReal.coe_add]
  rfl

theorem q_apply (i : S4x2048x1024.Idx) :
    val_main_v3 (F := Ideal) (up3 x) (up2 Wq) (up1 bq) i = ((proj x Wq bq (i 0) (i 1) (i 2) : ℝ) : EReal) := by
  rw [val_main_v3_apply, val_main_v0_apply, val_main_v2_apply, val_main_v1_apply]
  exact proj_coe x Wq bq i

theorem k_apply (i : S4x2048x1024.Idx) :
    val_main_v7 (F := Ideal) (up3 x) (up2 Wk) (up1 bk) i = ((proj x Wk bk (i 0) (i 1) (i 2) : ℝ) : EReal) := by
  rw [val_main_v7_apply, val_main_v4_apply, val_main_v6_apply, val_main_v5_apply]
  exact proj_coe x Wk bk i

theorem v_apply (i : S4x2048x1024.Idx) :
    val_main_v11 (F := Ideal) (up3 x) (up2 Wv) (up1 bv) i = ((proj x Wv bv (i 0) (i 1) (i 2) : ℝ) : EReal) := by
  rw [val_main_v11_apply, val_main_v8_apply, val_main_v10_apply, val_main_v9_apply]
  exact proj_coe x Wv bv i

theorem v14_apply (i : S4x2048x2048.Idx) : val_main_v14 (F := Ideal) i = ((32 : ℝ) : EReal) := by
  rw [val_main_v14_apply, val_main_v12_apply, val_main_cst_apply]
  show Ideal.sqrt (Ideal.ofBits .f32 0x44800000#32) = _
  rw [ofBits_1024, sqrt_1024]

theorem s_apply (i : S4x2048x2048.Idx) :
    val_main_v15 (F := Ideal) (up3 x) (up2 Wq) (up1 bq) (up2 Wk) (up1 bk) i
      = ((score (proj x Wq bq) (proj x Wk bk) (i 0) (i 1) (i 2) : ℝ) : EReal) := by
  rw [val_main_v15_apply, val_main_v13_apply, v14_apply]
  simp only [q_apply, k_apply]
  show Ideal.div (∑ k : Fin 1024, ((proj x Wq bq (i 0) (i 1) k : ℝ) : EReal) * ((proj x Wk bk (i 0) (i 2) k : ℝ) : EReal))
      ((32 : ℝ) : EReal) = _
  rw [Ideal.div_coe (by norm_num)]
  simp only [← EReal.coe_mul]
  rw [coe_sum, ← EReal.coe_mul]
  congr 1
  unfold score
  ring

theorem fold_max_coe {n : Nat} (hn : 0 < n) (f : Fin n → ℝ) :
    ∃ r : ℝ, (Finset.univ : Finset (Fin n)).fold max (⊥ : EReal) (fun k => ((f k : ℝ) : EReal)) = (r : EReal) := by
  refine ⟨((Finset.univ : Finset (Fin n)).fold max (⊥ : EReal) (fun k => ((f k : ℝ) : EReal))).toReal, ?_⟩
  refine (EReal.coe_toReal ?_ ?_).symm
  · refine ne_of_lt ?_
    rw [Finset.fold_max_lt]
    exact ⟨bot_lt_top, fun k _ => EReal.coe_lt_top _⟩
  · refine ne_of_gt ?_
    refine lt_of_lt_of_le (EReal.bot_lt_coe (f ⟨0, hn⟩)) ?_
    rw [Finset.le_fold_max]
    exact Or.inr ⟨⟨0, hn⟩, Finset.mem_univ _, le_refl _⟩

theorem reduces_d2 : S4x2048x2048.Reduces [2] S4x2048 := by decide

def rowMax (n : Fin 4) (q : Fin 2048) : ℝ :=
  (val_main_v18 (F := Ideal) (up3 x) (up2 Wq) (up1 bq) (up2 Wk) (up1 bk) (ValueIdx.ix2 n q)).toReal

theorem m_apply (j : S4x2048.Idx) :
    val_main_v18 (F := Ideal) (up3 x) (up2 Wq) (up1 bq) (up2 Wk) (up1 bk) j
      = ((rowMax x Wq bq Wk bk (j 0) (j 1) : ℝ) : EReal) := by
  obtain ⟨r, hr⟩ : ∃ r : ℝ, val_main_v18 (F := Ideal) (up3 x) (up2 Wq) (up1 bq) (up2 Wk) (up1 bk) j = (r : EReal) := by
    rw [val_main_v18_apply, val_main_v17_apply, val_main_cst_1_apply]
    unfold val_main_v16
    rw [Host.reduce_eq_fold_single FloatOps.maximumf _ _ _ reduces_d2 _ j, val_main_cst_0_apply]
    have e : (val_main_v15 (F := Ideal) (up3 x) (up2 Wq) (up1 bq) (up2 Wk) (up1 bk) ∘ reduces_d2.lift j)
        = fun k : Fin 2048 => ((score (proj x Wq bq) (proj x Wk bk) (j 0) (j 1) k : ℝ) : EReal) := by
      funext k
      show val_main_v15 (F := Ideal) (up3 x) (up2 Wq) (up1 bq) (up2 Wk) (up1 bk) (reduces_d2.lift j k) = _
      rw [s_apply]
      rfl
    obtain ⟨r, hr⟩ := fold_max_coe (n := 2048) (by norm_num)
      (fun k => score (proj x Wq bq) (proj x Wk bk) (j 0) (j 1) k)
    refine ⟨r, ?_⟩
    show max (Ideal.ofBits .f32 0xFF800000#32) ((Finset.univ : Finset (Fin 2048)).fold max (Ideal.ofBits .f32 0xFF800000#32)
      (val_main_v15 (F := Ideal) (up3 x) (up2 Wq) (up1 bq) (up2 Wk) (up1 bk) ∘ reduces_d2.lift j)) = _
    rw [e, ofBits_neg_inf]
    exact (congrArg (max (⊥ : EReal)) hr).trans (max_eq_right bot_le)
  have h2 : val_main_v18 (F := Ideal) (up3 x) (up2 Wq) (up1 bq) (up2 Wk) (up1 bk) (ValueIdx.ix2 (j 0) (j 1)) = (r : EReal) :=
    (congrArg (val_main_v18 (F := Ideal) (up3 x) (up2 Wq) (up1 bq) (up2 Wk) (up1 bk)) (ValueIdx.eq_ix2 j).symm).trans hr
  unfold rowMax
  exact hr.trans ((congrArg (fun z : EReal => ((z.toReal : ℝ) : EReal)) h2).trans
    (congrArg (fun t : ℝ => (t : EReal)) (EReal.toReal_coe r))).symm

theorem e_apply (i : S4x2048x2048.Idx) :
    val_main_v22 (F := Ideal) (up3 x) (up2 Wq) (up1 bq) (up2 Wk) (up1 bk) i
      = ((Real.exp (score (proj x Wq bq) (proj x Wk bk) (i 0) (i 1) (i 2) - rowMax x Wq bq Wk bk (i 0) (i 1)) : ℝ) : EReal) := by
  rw [val_main_v22_apply, val_main_v21_apply, s_apply, val_main_v20_apply, val_main_v19_apply, m_apply]
  show Ideal.exp (((score (proj x Wq bq) (proj x Wk bk) (i 0) (i 1) (i 2) : ℝ) : EReal) - ((rowMax x Wq bq Wk bk (i 0) (i 1) : ℝ) : EReal)) = _
  rw [← EReal.coe_sub, Ideal.exp_coe]

def rowSum (n : Fin 4) (q : Fin 2048) : ℝ :=
  ∑ k : Fin 2048, Real.exp (score (proj x Wq bq) (proj x Wk bk) n q k - rowMax x Wq bq Wk bk n q)

theorem rowSum_pos (n : Fin 4) (q : Fin 2048) : 0 < rowSum x Wq bq Wk bk n q :=
  Finset.sum_pos (fun k _ => Real.exp_pos _) ⟨⟨0, by norm_num⟩, Finset.mem_univ _⟩

theorem z_apply (j : S4x2048.Idx) :
    val_main_v23 (F := Ideal) (up3 x) (up2 Wq) (up1 bq) (up2 Wk) (up1 bk) j = ((rowSum x Wq bq Wk bk (j 0) (j 1) : ℝ) : EReal) := by
  rw [val_main_v23_apply, val_main_cst_2_apply]
  simp only [e_apply]
  show Ideal.ofBits .f32 0x00000000#32
      + ∑ k : Fin 2048, ((Real.exp (score (proj x Wq bq) (proj x Wk bk) (j 0) (j 1) k - rowMax x Wq bq Wk bk (j 0) (j 1)) : ℝ) : EReal) = _
  rw [ofBits_zero, zero_add, coe_sum]
  rfl

theorem p_apply (i : S4x2048x2048.Idx) :
    val_main_v26 (F := Ideal) (up3 x) (up2 Wq) (up1 bq) (up2 Wk) (up1 bk) i
      = ((Real.exp (score (proj x Wq bq) (proj x Wk bk) (i 0) (i 1) (i 2) - rowMax x Wq bq Wk bk (i 0) (i 1)) * (1 / rowSum x Wq bq Wk bk (i 0) (i 1)) : ℝ) : EReal) := by
  rw [val_main_v26_apply, e_apply, val_main_v25_apply, val_main_v24_apply, z_apply]
  show Ideal.div ((Real.exp (score (proj x Wq bq) (proj x Wk bk) (i 0) (i 1) (i 2) - rowMax x Wq bq Wk bk (i 0) (i 1)) : ℝ) : EReal)
      ((rowSum x Wq bq Wk bk (i 0) (i 1) : ℝ) : EReal) = _
  rw [Ideal.div_coe (ne_of_gt (rowSum_pos x Wq bq Wk bk (i 0) (i 1))), ← EReal.coe_mul]

theorem softmax_shift (S V : Fin 2048 → ℝ) (M : ℝ) :
    ∑ k, (Real.exp (S k - M) * (1 / ∑ k', Real.exp (S k' - M))) * V k
      = ∑ k, (Real.exp (S k) / ∑ k', Real.exp (S k')) * V k := by
  have hT : 0 < ∑ k', Real.exp (S k') :=
    Finset.sum_pos (fun k _ => Real.exp_pos _) ⟨⟨0, by norm_num⟩, Finset.mem_univ _⟩
  have hZ : ∑ k', Real.exp (S k' - M) = (∑ k', Real.exp (S k')) / Real.exp M := by
    rw [Finset.sum_div]
    exact Finset.sum_congr rfl fun k _ => Real.exp_sub _ _
  have hM : Real.exp M ≠ 0 := (Real.exp_pos M).ne'
  have hT' : (∑ k', Real.exp (S k')) ≠ 0 := hT.ne'
  refine Finset.sum_congr rfl fun k _ => ?_
  rw [hZ, Real.exp_sub]
  field_simp

theorem out_apply (i : S4x2048x1024.Idx) :
    val_main_v27 (F := Ideal) (up3 x) (up2 Wq) (up1 bq) (up2 Wk) (up1 bk) (up2 Wv) (up1 bv) i
      = ((attn x Wq bq Wk bk Wv bv (i 0) (i 1) (i 2) : ℝ) : EReal) := by
  rw [val_main_v27_apply]
  simp only [p_apply, v_apply]
  show ∑ k : Fin 2048, ((Real.exp (score (proj x Wq bq) (proj x Wk bk) (i 0) (i 1) k - rowMax x Wq bq Wk bk (i 0) (i 1)) * (1 / rowSum x Wq bq Wk bk (i 0) (i 1)) : ℝ) : EReal)
      * ((proj x Wv bv (i 0) k (i 2) : ℝ) : EReal) = _
  simp only [← EReal.coe_mul]
  rw [coe_sum]
  congr 1
  exact softmax_shift (fun k => score (proj x Wq bq) (proj x Wk bk) (i 0) (i 1) k) (fun k => proj x Wv bv (i 0) k (i 2)) (rowMax x Wq bq Wk bk (i 0) (i 1))

theorem ref_value :
    val_main_v27 (F := Ideal) (up3 x) (up2 Wq) (up1 bq) (up2 Wk) (up1 bk) (up2 Wv) (up1 bv) = up3 (attn x Wq bq Wk bk Wv bv) :=
  funext fun i => out_apply x Wq bq Wk bk Wv bv i

theorem ref_value_run (m : (ℓ : Loc nD τ sig) → Buf (Elt Ideal) ℓ) (c : Dev nD)
    (h0 : m ((c.tc : Thread nD τ).loc main_arg0) = up3 x) (h1 : m ((c.tc : Thread nD τ).loc main_arg1) = up2 Wq)
    (h2 : m ((c.tc : Thread nD τ).loc main_arg2) = up1 bq) (h3 : m ((c.tc : Thread nD τ).loc main_arg3) = up2 Wk)
    (h4 : m ((c.tc : Thread nD τ).loc main_arg4) = up1 bk) (h5 : m ((c.tc : Thread nD τ).loc main_arg5) = up2 Wv)
    (h6 : m ((c.tc : Thread nD τ).loc main_arg6) = up1 bv) :
    Cert.ReferenceIdeal.Value.res_main_v27 m c = up3 (attn x Wq bq Wk bk Wv bv) := by
  rw [val_main_v27_eq, h0, h1, h2, h3, h4, h5, h6]
  exact ref_value x Wq bq Wk bk Wv bv

end Cert.ReferenceIdeal.RefValue

end
-- ==== Proof.K.R0.lean ====
import proofs.«424806_j56435870269801_3_alg».proof.Proof.Gen.Kernel.Launch
import proofs.«424806_j56435870269801_3_alg».proof.Proof.Gen.Kernel.Skeleton
import proofs.«424806_j56435870269801_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x1024 := Rect.unit (s := S512x1024) ![0, 0] S512x1024.size inb_S512x1024_S512x1024_0_0
abbrev r0_1 : Rect S1024x2048 := Rect.unit (s := S1024x2048) ![0, 0] S1024x2048.size inb_S1024x2048_S1024x2048_0_0
abbrev r0_2 : Rect S2048 := Rect.unit (s := S2048) ![0] S2048.size inb_S2048_S2048_0
abbrev r0_3 : Rect S512x2048 := Rect.unit (s := S512x2048) ![0, 0] S512x2048.size inb_S512x2048_S512x2048_0_0

def out0_3 (x0 : Vec F S512x1024 .f32) (x1 : Vec F S1024x2048 .bf16) (x2 : Vec F S2048 .f32) : Vec F S512x2048 .bf16 :=
  View.canon [⟨r0_3, k0_pay1 (View.ld x0 r0_0) (View.ld x1 r0_1) (View.ld x2 r0_2)⟩]

theorem cover0_3 (p0 : Vec F S512x2048 .bf16) (y : S512x2048.Idx) :
    ∃ pc ∈ ([⟨r0_3, p0⟩] : List (View.Piece (Elt F) S512x2048 .bf16)), y ∈ pc.1.set :=
  View.cover_of_tiled [⟨r0_3, p0⟩] S512x2048.size (by rfl) y

theorem sound_kernel0 (c : Dev nD) (E : Set ℕ) (i : grid0.Coords) (arg1 : Memref sig .tc .vmem S512x1024 .f32) (harg1 : arg1.IsWhole)
    (arg2 : Memref sig .tc .vmem S1024x2048 .bf16) (harg2 : arg2.IsWhole) (arg3 : Memref sig .tc .vmem S2048 .f32) (harg3 : arg3.IsWhole)
    (arg4 : Memref sig .tc .vmem S512x2048 .bf16) (harg4 : arg4.IsWhole)
    (x0 : Vec F S512x1024 .f32) (x1 : Vec F S1024x2048 .bf16) (x2 : Vec F S2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__kv_proj_kernel i arg1 harg1 arg2 harg2 arg3 harg3 arg4 harg4) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Regions

end Cert.Kernel.H

end
-- ==== Proof.K.R1Blk.lean ====
import proofs.«424806_j56435870269801_3_alg».proof.Proof.Gen.Kernel.Launch
import proofs.«424806_j56435870269801_3_alg».proof.Proof.Gen.Kernel.Skeleton
import proofs.«424806_j56435870269801_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end

end Cert.Kernel.H

end
-- ==== Proof.K.R1Runs.lean ====
import proofs.«424806_j56435870269801_3_alg».proof.Proof.K.R1Blk

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem idleAt1_5_A : ∀ t : Fin cfg1.N, cond1_0 (grid1.coords t) → ¬cond1_1 (grid1.coords t) → cfg1.idle 5 (grid1.coords t) = true := by decide +kernel

theorem noFlush1_5_A : ∀ t : Fin cfg1.N, cond1_0 (grid1.coords t) → ¬cond1_1 (grid1.coords t) → (cfg1.win 5).flush t = false := by decide +kernel

theorem idleAt1_5_B : ∀ t : Fin cfg1.N, ¬cond1_0 (grid1.coords t) → ¬cond1_1 (grid1.coords t) → cfg1.idle 5 (grid1.coords t) = true := by decide +kernel

theorem noFlush1_5_B : ∀ t : Fin cfg1.N, ¬cond1_0 (grid1.coords t) → ¬cond1_1 (grid1.coords t) → (cfg1.win 5).flush t = false := by decide +kernel

theorem liveAt1_5_C : ∀ t : Fin cfg1.N, ¬cond1_0 (grid1.coords t) → cond1_1 (grid1.coords t) → cfg1.idle 5 (grid1.coords t) = false := by decide +kernel

abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)

abbrev scM1_0 : Memref sig .tc .vmem S1x1024x1 .f32 := Memref.whole cc1_scratch0
abbrev scM1_1 : Memref sig .tc .vmem S1x1024x1 .f32 := Memref.whole cc1_scratch1
abbrev scM1_2 : Memref sig .tc .vmem S1x1024x1024 .f32 := Memref.whole cc1_scratch2
abbrev scM1_3 : Memref sig .tc .vmem S1x1024x1024 .bf16 := Memref.whole cc1_scratch3

theorem bodyAt1_eq (t : Fin cfg1.N) : bodyAt1 (F := F) t
    = cc1__flash_attn_kernel (grid1.coords t) (ms1_0 t) (hs1_0 t) (ms1_1 t) (hs1_1 t) (ms1_2 t) (hs1_2 t) (ms1_3 t) (hs1_3 t) (ms1_4 t) (hs1_4 t) (ms1_5 t) (hs1_5 t)
        scM1_0 (Memref.isWhole_whole _) scM1_1 (Memref.isWhole_whole _) scM1_2 (Memref.isWhole_whole _) scM1_3 (Memref.isWhole_whole _) := rfl

end Cert.Kernel.H

end
-- ==== Proof.K.R1RunA.lean ====
import proofs.«424806_j56435870269801_3_alg».proof.Proof.K.R1Runs

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

noncomputable def kernelRun1_A (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (arg12 : Memref sig .tc .vmem S1x1024x1024 .bf16) (harg12 : arg12.IsWhole) (hc0 : cond1_0 i) (hc1 : ¬cond1_1 i)
    (x0 : Vec F S1x1024x1024 .f32) (x1 : Vec F S1024x1024 .bf16) (x2 : Vec F S1024 .f32) (x3 : Vec F S1x512x1024 .bf16) (x4 : Vec F S1x512x1024 .bf16) :
    Σ' (L5 : List (View.Piece (Elt F) S1x1024x1024 .f32)) (LS0 : List (View.Piece (Elt F) S1x1024x1 .f32)) (LS1 : List (View.Piece (Elt F) S1x1024x1 .f32)) (LS2 : List (View.Piece (Elt F) S1x1024x1024 .f32)), { LS3 : List (View.Piece (Elt F) S1x1024x1024 .bf16) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K } := by
  refine ⟨[], ?_, ?_, ?_, ?_, fun xi5 E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.Kernel.H

end
-- ==== Proof.K.R1RunB.lean ====
import proofs.«424806_j56435870269801_3_alg».proof.Proof.K.R1RunA

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

noncomputable def kernelRun1_B (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (arg12 : Memref sig .tc .vmem S1x1024x1024 .bf16) (harg12 : arg12.IsWhole) (hc0 : ¬cond1_0 i) (hc1 : ¬cond1_1 i)
    (x0 : Vec F S1x1024x1024 .f32) (x1 : Vec F S1024x1024 .bf16) (x2 : Vec F S1024 .f32) (x3 : Vec F S1x512x1024 .bf16) (x4 : Vec F S1x512x1024 .bf16) (xs0 : Vec F S1x1024x1 .f32) (xs1 : Vec F S1x1024x1 .f32) (xs2 : Vec F S1x1024x1024 .f32) (xs3 : Vec F S1x1024x1024 .bf16) :
    Σ' (L5 : List (View.Piece (Elt F) S1x1024x1024 .f32)) (LS0 : List (View.Piece (Elt F) S1x1024x1 .f32)) (LS1 : List (View.Piece (Elt F) S1x1024x1 .f32)), { LS2 : List (View.Piece (Elt F) S1x1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K } := by
  refine ⟨[], ?_, ?_, ?_, fun xi5 E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; isplitr; · ipureintro; exact harg12.read_unread _
    iexact HS3

end Cert.Kernel.H

end
-- ==== Proof.K.R1RunC.lean ====
import proofs.«424806_j56435870269801_3_alg».proof.Proof.K.R1RunB

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

noncomputable def kernelRun1_C (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (arg12 : Memref sig .tc .vmem S1x1024x1024 .bf16) (harg12 : arg12.IsWhole) (hc0 : ¬cond1_0 i) (hc1 : cond1_1 i)
    (x0 : Vec F S1x1024x1024 .f32) (x1 : Vec F S1024x1024 .bf16) (x2 : Vec F S1024 .f32) (x3 : Vec F S1x512x1024 .bf16) (x4 : Vec F S1x512x1024 .bf16) (xs0 : Vec F S1x1024x1 .f32) (xs1 : Vec F S1x1024x1 .f32) (xs2 : Vec F S1x1024x1024 .f32) (xs3 : Vec F S1x1024x1024 .bf16) :
    Σ' (L5 : List (View.Piece (Elt F) S1x1024x1024 .f32)) (LS0 : List (View.Piece (Elt F) S1x1024x1 .f32)) (LS1 : List (View.Piece (Elt F) S1x1024x1 .f32)), { LS2 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg12.read_unread _
    iexact HS3

end Cert.Kernel.H

end
-- ==== Proof.K.R1Dat.lean ====
import proofs.«424806_j56435870269801_3_alg».proof.Proof.K.R1RunC
import Idealize.ShloMosaic.Lib.Pipeline.Value

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def otherRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem PhiA1_eq (c : Dev nD) :
    (Pipeline.ΦA spec1 c : sProp 𝕄)
      = iprop(iprop(otherRest (F := F) c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; unfold otherRest; simp only [scM1_0, scM1_1, scM1_2, scM1_3, owns_whole]
  have assoc : ∀ (P Q R : sProp 𝕄), iprop((P ∗ Q) ∗ R) = iprop(P ∗ Q ∗ R) :=
    fun _ _ _ => Idealize.SL.BI.Entails.antisymm Idealize.SL.BI.sep_assoc Idealize.SL.BI.sep_assoc'
  simp only [assoc]; rfl

theorem r1_hz3 : (![0, 0, 0] : Fin 3 → Nat) = fun _ => 0 := funext fun a => by fin_cases a <;> rfl
theorem r1_hz2 : (![0, 0] : Fin 2 → Nat) = fun _ => 0 := funext fun a => by fin_cases a <;> rfl
theorem r1_hz1 : (![0] : Fin 1 → Nat) = fun _ => 0 := funext fun a => by fin_cases a <;> rfl

/-- Pieces that tile a shape, written over anything, read back as their canonical function. -/
theorem read_tiled {S : Shape} {e : EltTy} (v : View sig .tc .vmem S e) (f : v.ty.Contents (Elt F)) (L : List (View.Piece (Elt F) S e))
    (h : View.Piece.tiledL L S.size = true) : v.read (Elt F) (v.writes (Elt F) f L) = View.canon L :=
  View.read_writes_eq_canon v f L (View.cover_of_tiledL L S.size h)

/-- One key tile's update of a query tile's carried state (running maximum m, running sum l, accumulator a, query tile q): the candidate output a'/l', then m', l', a' and q. -/
def upd1 (x3 x4 : Vec F S1x512x1024 .bf16) (m l : Vec F S1x1024x1 .f32) (a : Vec F S1x1024x1024 .f32) (q : Vec F S1x1024x1024 .bf16) :
    Vec F S1x1024x1024 .f32 × Vec F S1x1024x1 .f32 × Vec F S1x1024x1 .f32 × Vec F S1x1024x1024 .f32 × Vec F S1x1024x1024 .bf16 :=
  (k1_pay3 (k1_pay1 (k1_pay8 x4) (k1_pay11 q x3 m m) (k1_pay12 q x3 m) a) (k1_pay13 q x3 m m l), k1_pay2 (k1_pay10 q x3 m), k1_pay13 q x3 m m l, k1_pay1 (k1_pay8 x4) (k1_pay11 q x3 m m) (k1_pay12 q x3 m) a, q)

section
variable (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (arg12 : Memref sig .tc .vmem S1x1024x1024 .bf16) (harg12 : arg12.IsWhole)
  (x0 : Vec F S1x1024x1024 .f32) (x1 : Vec F S1024x1024 .bf16) (x2 : Vec F S1024 .f32) (x3 x4 : Vec F S1x512x1024 .bf16)
  (m l : Vec F S1x1024x1 .f32) (a : Vec F S1x1024x1024 .f32) (q : Vec F S1x1024x1024 .bf16)

/-- The first key tile resets the state and projects the query tile before it updates: every scratch buffer reads back as the update of the reset state. -/
theorem piecesA (hc0 : cond1_0 i) (hc1 : ¬cond1_1 i) : ∀ r, r = kernelRun1_A c i arg3 harg3 arg4 harg4 arg5 harg5 arg6 harg6 arg7 harg7 arg8 harg8 arg9 harg9 arg10 harg10 arg11 harg11 arg12 harg12 hc0 hc1 x0 x1 x2 x3 x4 →
    (∀ (v : View sig .tc .vmem S1x1024x1 .f32) (f : v.ty.Contents (Elt F)), v.read (Elt F) (v.writes (Elt F) f r.2.1) = k1_pay2 (k1_pay10 (k1_pay7 x0 x1 x2) x3 k1_pay4))
    ∧ (∀ (v : View sig .tc .vmem S1x1024x1 .f32) (f : v.ty.Contents (Elt F)), v.read (Elt F) (v.writes (Elt F) f r.2.2.1) = k1_pay13 (k1_pay7 x0 x1 x2) x3 k1_pay4 k1_pay4 k1_pay5)
    ∧ (∀ (v : View sig .tc .vmem S1x1024x1024 .f32) (f : v.ty.Contents (Elt F)), v.read (Elt F) (v.writes (Elt F) f r.2.2.2.1) = k1_pay1 (k1_pay8 x4) (k1_pay11 (k1_pay7 x0 x1 x2) x3 k1_pay4 k1_pay4) (k1_pay12 (k1_pay7 x0 x1 x2) x3 k1_pay4) k1_pay6)
    ∧ (∀ (v : View sig .tc .vmem S1x1024x1024 .bf16) (f : v.ty.Contents (Elt F)), v.read (Elt F) (v.writes (Elt F) f r.2.2.2.2.1) = k1_pay7 x0 x1 x2) := by
  rintro _ rfl
  refine ⟨fun v f => ?_, fun v f => ?_, fun v f => ?_, fun v f => ?_⟩ <;>
  (rw [read_tiled _ _ _ (by sl_kernel_rfl)]; unfold kernelRun1_A; dsimp only; sl_unfold_words
   first
     | rw [View.canon_unit_zero (S := S1x1024x1) r1_hz3] | rw [View.canon_unit_zero (S := S1x1024x1024) r1_hz3]
     | rw [View.canon_cons_unit_zero (S := S1x1024x1) r1_hz3] | rw [View.canon_cons_unit_zero (S := S1x1024x1024) r1_hz3]
   simp only [View.readAt_eq_ld, harg3.read_unread, harg4.read_unread, harg5.read_unread, harg6.read_unread, harg7.read_unread, harg8.read_unread, harg9.read_unread, harg10.read_unread, harg11.read_unread, harg12.read_unread,
    View.ld_unit_zero (S := S1x1024x1024) r1_hz3, View.ld_unit_zero (S := S1x512x1024) r1_hz3, View.ld_unit_zero (S := S1x1024x1) r1_hz3, View.ld_unit_zero (S := S1024x1024) r1_hz2, View.ld_unit_zero (S := S1024) r1_hz1,
    View.readCov_unit_zero (S := S1x1024x1024) _ r1_hz3, View.readCov_unit_zero (S := S1x1024x1) _ r1_hz3])

/-- A middle key tile updates the state it finds. -/
theorem piecesB (hc0 : ¬cond1_0 i) (hc1 : ¬cond1_1 i) : ∀ r, r = kernelRun1_B c i arg3 harg3 arg4 harg4 arg5 harg5 arg6 harg6 arg7 harg7 arg8 harg8 arg9 harg9 arg10 harg10 arg11 harg11 arg12 harg12 hc0 hc1 x0 x1 x2 x3 x4 m l a q →
    (∀ (v : View sig .tc .vmem S1x1024x1 .f32) (f : v.ty.Contents (Elt F)), v.read (Elt F) (v.writes (Elt F) f r.2.1) = k1_pay2 (k1_pay10 q x3 m))
    ∧ (∀ (v : View sig .tc .vmem S1x1024x1 .f32) (f : v.ty.Contents (Elt F)), v.read (Elt F) (v.writes (Elt F) f r.2.2.1) = k1_pay13 q x3 m m l)
    ∧ (∀ (v : View sig .tc .vmem S1x1024x1024 .f32) (f : v.ty.Contents (Elt F)), v.read (Elt F) (v.writes (Elt F) f r.2.2.2.1) = k1_pay1 (k1_pay8 x4) (k1_pay11 q x3 m m) (k1_pay12 q x3 m) a) := by
  rintro _ rfl
  refine ⟨fun v f => ?_, fun v f => ?_, fun v f => ?_⟩ <;>
  (rw [read_tiled _ _ _ (by sl_kernel_rfl)]; unfold kernelRun1_B; dsimp only; sl_unfold_words
   first
     | rw [View.canon_unit_zero (S := S1x1024x1) r1_hz3] | rw [View.canon_unit_zero (S := S1x1024x1024) r1_hz3]
     | rw [View.canon_cons_unit_zero (S := S1x1024x1) r1_hz3] | rw [View.canon_cons_unit_zero (S := S1x1024x1024) r1_hz3]
   simp only [View.readAt_eq_ld, harg3.read_unread, harg4.read_unread, harg5.read_unread, harg6.read_unread, harg7.read_unread, harg8.read_unread, harg9.read_unread, harg10.read_unread, harg11.read_unread, harg12.read_unread,
    View.ld_unit_zero (S := S1x1024x1024) r1_hz3, View.ld_unit_zero (S := S1x512x1024) r1_hz3, View.ld_unit_zero (S := S1x1024x1) r1_hz3, View.ld_unit_zero (S := S1024x1024) r1_hz2, View.ld_unit_zero (S := S1024) r1_hz1,
    View.readCov_unit_zero (S := S1x1024x1024) _ r1_hz3, View.readCov_unit_zero (S := S1x1024x1) _ r1_hz3])

/-- The last key tile does the same and also writes the output tile, the new accumulator over the new running sum. -/
theorem piecesC (hc0 : ¬cond1_0 i) (hc1 : cond1_1 i) : ∀ r, r = kernelRun1_C c i arg3 harg3 arg4 harg4 arg5 harg5 arg6 harg6 arg7 harg7 arg8 harg8 arg9 harg9 arg10 harg10 arg11 harg11 arg12 harg12 hc0 hc1 x0 x1 x2 x3 x4 m l a q →
    (∀ (v : View sig .tc .vmem S1x1024x1 .f32) (f : v.ty.Contents (Elt F)), v.read (Elt F) (v.writes (Elt F) f r.2.1) = k1_pay2 (k1_pay10 q x3 m))
    ∧ (∀ (v : View sig .tc .vmem S1x1024x1 .f32) (f : v.ty.Contents (Elt F)), v.read (Elt F) (v.writes (Elt F) f r.2.2.1) = k1_pay13 q x3 m m l)
    ∧ (∀ (v : View sig .tc .vmem S1x1024x1024 .f32) (f : v.ty.Contents (Elt F)), v.read (Elt F) (v.writes (Elt F) f r.2.2.2.1) = k1_pay1 (k1_pay8 x4) (k1_pay11 q x3 m m) (k1_pay12 q x3 m) a)
    ∧ (∀ (v : View sig .tc .vmem S1x1024x1024 .f32) (f : v.ty.Contents (Elt F)), v.read (Elt F) (v.writes (Elt F) f r.1) = k1_pay3 (k1_pay1 (k1_pay8 x4) (k1_pay11 q x3 m m) (k1_pay12 q x3 m) a) (k1_pay13 q x3 m m l)) := by
  rintro _ rfl
  refine ⟨fun v f => ?_, fun v f => ?_, fun v f => ?_, fun v f => ?_⟩ <;>
  (rw [read_tiled _ _ _ (by sl_kernel_rfl)]; unfold kernelRun1_C; dsimp only; sl_unfold_words
   first
     | rw [View.canon_unit_zero (S := S1x1024x1) r1_hz3] | rw [View.canon_unit_zero (S := S1x1024x1024) r1_hz3]
     | rw [View.canon_cons_unit_zero (S := S1x1024x1) r1_hz3] | rw [View.canon_cons_unit_zero (S := S1x1024x1024) r1_hz3]
   simp only [View.readAt_eq_ld, harg3.read_unread, harg4.read_unread, harg5.read_unread, harg6.read_unread, harg7.read_unread, harg8.read_unread, harg9.read_unread, harg10.read_unread, harg11.read_unread, harg12.read_unread,
    View.ld_unit_zero (S := S1x1024x1024) r1_hz3, View.ld_unit_zero (S := S1x512x1024) r1_hz3, View.ld_unit_zero (S := S1x1024x1) r1_hz3, View.ld_unit_zero (S := S1024x1024) r1_hz2, View.ld_unit_zero (S := S1024) r1_hz1,
    View.readCov_unit_zero (S := S1x1024x1024) _ r1_hz3, View.readCov_unit_zero (S := S1x1024x1) _ r1_hz3])

end

section
variable (V : (c : Dev nD) → (b : Ref sig .tc) → Buf (Elt F) ((c : Thread nD τ).loc b))

/-- The output tile candidate and the carried state after position n: the state restarts where a query tile begins (n ≡ 0 mod 4) and is otherwise the update of what position n - 1 left. -/
def outsAt1 (c : Dev nD) : (n : ℕ) → n < cfg1.N → Vec F S1x1024x1024 .f32 × Vec F S1x1024x1 .f32 × Vec F S1x1024x1 .f32 × Vec F S1x1024x1024 .f32 × Vec F S1x1024x1024 .bf16
  | 0, hn => upd1 (iblk1 V c 3 ⟨0, hn⟩) (iblk1 V c 4 ⟨0, hn⟩) k1_pay4 k1_pay5 k1_pay6 (k1_pay7 (iblk1 V c 0 ⟨0, hn⟩) (iblk1 V c 1 ⟨0, hn⟩) (iblk1 V c 2 ⟨0, hn⟩))
  | n + 1, hn =>
    if (n + 1) % 4 = 0 then
      upd1 (iblk1 V c 3 ⟨n + 1, hn⟩) (iblk1 V c 4 ⟨n + 1, hn⟩) k1_pay4 k1_pay5 k1_pay6 (k1_pay7 (iblk1 V c 0 ⟨n + 1, hn⟩) (iblk1 V c 1 ⟨n + 1, hn⟩) (iblk1 V c 2 ⟨n + 1, hn⟩))
    else
      upd1 (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2

theorem outsAt1_A (c : Dev nD) (t : Fin cfg1.N) (h0 : t.val % 4 = 0) :
    outsAt1 V c t.val t.isLt = upd1 (iblk1 V c 3 t) (iblk1 V c 4 t) k1_pay4 k1_pay5 k1_pay6 (k1_pay7 (iblk1 V c 0 t) (iblk1 V c 1 t) (iblk1 V c 2 t)) := by
  obtain ⟨n, hn⟩ := t
  cases n with
  | zero => rfl
  | succ n => exact if_pos h0

abbrev prev1 (c : Dev nD) (t : Fin cfg1.N) := outsAt1 V c (t.val - 1) (Nat.lt_of_le_of_lt (Nat.sub_le _ _) t.isLt)

theorem outsAt1_BC (c : Dev nD) (t : Fin cfg1.N) (h0 : ¬t.val % 4 = 0) :
    outsAt1 V c t.val t.isLt = upd1 (iblk1 V c 3 t) (iblk1 V c 4 t) (prev1 V c t).2.1 (prev1 V c t).2.2.1 (prev1 V c t).2.2.2.1 (prev1 V c t).2.2.2.2 := by
  obtain ⟨n, hn⟩ := t
  cases n with
  | zero => exact absurd (Nat.zero_mod _) h0
  | succ n => exact if_neg h0

/-- The carried state at named contents, beside the resources the body never touches. -/
def PhiAt (c : Dev nD) (p : Vec F S1x1024x1024 .f32 × Vec F S1x1024x1 .f32 × Vec F S1x1024x1 .f32 × Vec F S1x1024x1024 .f32 × Vec F S1x1024x1024 .bf16) : sProp 𝕄 :=
  iprop(iprop(otherRest (F := F) c ∗ owns (c : Thread nD τ) scM1_0 fullShare p.2.1 ∗ owns (c : Thread nD τ) scM1_1 fullShare p.2.2.1 ∗ owns (c : Thread nD τ) scM1_2 fullShare p.2.2.2.1 ∗ owns (c : Thread nD τ) scM1_3 fullShare p.2.2.2.2) ∗ (∃ r, prngReg c r))

theorem PhiAt_forget (c : Dev nD) (p : Vec F S1x1024x1024 .f32 × Vec F S1x1024x1 .f32 × Vec F S1x1024x1 .f32 × Vec F S1x1024x1024 .f32 × Vec F S1x1024x1024 .bf16) : PhiAt (F := F) c p ⊢ Pipeline.ΦA spec1 c := by
  unfold PhiAt; rw [PhiA1_eq]
  iintro ⟨⟨HR, HS0, HS1, HS2, HS3⟩, Hg⟩
  isplitr [Hg]
  · isplitl [HR]; · iexact HR
    isplitl [HS0]; · iexists _; iexact HS0
    isplitl [HS1]; · iexists _; iexact HS1
    isplitl [HS2]; · iexists _; iexact HS2
    iexists _; iexact HS3
  iexact Hg

/-- The region invariant before position n: the entry invariant at first, then the scratch buffers at what the position before left. -/
def PhiS1 (c : Dev nD) : (n : ℕ) → n ≤ cfg1.N → sProp 𝕄
  | 0, _ => Pipeline.ΦA spec1 c
  | n + 1, hn => PhiAt c (outsAt1 V c n hn)

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) : PhiS1 V c n h = PhiAt c (outsAt1 V c (n - 1) (by omega)) := by
  cases n with
  | zero => exact absurd rfl hz
  | succ n => rfl

/-- Named contents can always be forgotten: the entry invariant only says the scratch buffers hold something. -/
theorem PhiS1_forget (c : Dev nD) (n : ℕ) (h : n ≤ cfg1.N) : PhiS1 V c n h ⊢ Pipeline.ΦA spec1 c := by
  cases n with
  | zero => exact Idealize.SL.BI.Entails.refl _
  | succ n => exact PhiAt_forget c _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨3, _⟩ => fullShare.left
    | ⟨4, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

theorem leaves1_0 (c : Dev nD) (t : Fin cfg1.N) : (dat1 V c).leavesExact 0 t = owns (c : Thread nD τ) (ms1_0 t) fullShare (iblk1 V c 0 t) := by
  unfold Dat.leavesExact; rw [liveAt1_0 t]; rfl
theorem leaves1_1 (c : Dev nD) (t : Fin cfg1.N) : (dat1 V c).leavesExact 1 t = owns (c : Thread nD τ) (ms1_1 t) fullShare (iblk1 V c 1 t) := by
  unfold Dat.leavesExact; rw [liveAt1_1 t]; rfl
theorem leaves1_2 (c : Dev nD) (t : Fin cfg1.N) : (dat1 V c).leavesExact 2 t = owns (c : Thread nD τ) (ms1_2 t) fullShare (iblk1 V c 2 t) := by
  unfold Dat.leavesExact; rw [liveAt1_2 t]; rfl
theorem leaves1_3 (c : Dev nD) (t : Fin cfg1.N) : (dat1 V c).leavesExact 3 t = owns (c : Thread nD τ) (ms1_3 t) fullShare (iblk1 V c 3 t) := by
  unfold Dat.leavesExact; rw [liveAt1_3 t]; rfl
theorem leaves1_4 (c : Dev nD) (t : Fin cfg1.N) : (dat1 V c).leavesExact 4 t = owns (c : Thread nD τ) (ms1_4 t) fullShare (iblk1 V c 4 t) := by
  unfold Dat.leavesExact; rw [liveAt1_4 t]; rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- The body at any point: the inputs are handed back as found; the invariant lends the carried state (the first key tile takes it at anything) and takes it back at the point's update; the output tile is written only at the last key tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1; rw [bodyAt1_eq]
  simp only [before1_0, before1_1, before1_2, before1_3, before1_4]
  rw [show (dat1 V c).owesAt () t.succ = (dat1 V c).owesAt () t.castSucc from rfl]
  rw [show (dat1 V c).Φ t.succ = PhiAt c (outsAt1 V c t.val t.isLt) from rfl, PhiS1_castSucc V c t]
  rw [leaves1_0, leaves1_1, leaves1_2, leaves1_3, leaves1_4]
  by_cases h0 : t.val % 4 = 0
  · have hc0 := (hcond1_0 t).mpr h0
    have hc1 : ¬cond1_1 (grid1.coords t) := fun h => by have := (hcond1_1 t).mp h; omega
    rw [Dat.leavesExact_idle (dat1 V c) 5 t (idleAt1_5_A t hc0 hc1) (noFlush1_5_A t hc0 hc1), outsAt1_A V c t h0]
    unfold PhiAt upd1; dsimp only
    obtain ⟨p0, p1, p2, p3⟩ := piecesA c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) hc0 hc1 _ rfl
    refine (sep_mono_left (PhiS1_forget V c _ _)).trans ?_
    rw [PhiA1_eq]
    iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    isplitl [HR HS0 HS1 HS2 HS3 Hg]
    · isplitr [Hg]
      · isplitl [HR]; · iexact HR
        isplitl [HS0]
        · unfold owns; iexists _; isplitr
          swap; · iexact HS0
          ipureintro; exact p0 _ _
        isplitl [HS1]
        · unfold owns; iexists _; isplitr
          swap; · iexact HS1
          ipureintro; exact p1 _ _
        isplitl [HS2]
        · unfold owns; iexists _; isplitr
          swap; · iexact HS2
          ipureintro; exact p2 _ _
        unfold owns; iexists _; isplitr
        swap; · iexact HS3
        ipureintro; exact p3 _ _
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    rw [outsAt1_BC V c t h0, PhiS1_pos V c _ _ (fun h => h0 (by omega))]
    unfold PhiAt upd1; dsimp only
    by_cases h1 : t.val % 4 = 3
    · have hc1 := (hcond1_1 t).mpr h1
      rw [show (dat1 V c).leavesExact 5 t = owns (c : Thread nD τ) (ms1_5 t) fullShare ((dat1 V c).after 5 t) from by
        unfold Dat.leavesExact; rw [liveAt1_5_C t hc0 hc1], after1_5, outsAt1_BC V c t h0]
      unfold upd1; dsimp only
      obtain ⟨p0, p1, p2, p5⟩ := piecesC c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (prev1 V c t).2.1 (prev1 V c t).2.2.1 (prev1 V c t).2.2.2.1 (prev1 V c t).2.2.2.2 hc0 hc1 _ rfl
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, HS3⟩
      isplitl [HR HS0 HS1 HS2 HS3 Hg]
      · isplitr [Hg]
        · isplitl [HR]; · iexact HR
          isplitl [HS0]
          · unfold owns; iexists _; isplitr
            swap; · iexact HS0
            ipureintro; exact p0 _ _
          isplitl [HS1]
          · unfold owns; iexists _; isplitr
            swap; · iexact HS1
            ipureintro; exact p1 _ _
          isplitl [HS2]
          · unfold owns; iexists _; isplitr
            swap; · iexact HS2
            ipureintro; exact p2 _ _
          iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact p5 _ _
    · have hc1 : ¬cond1_1 (grid1.coords t) := fun h => h1 ((hcond1_1 t).mp h)
      rw [Dat.leavesExact_idle (dat1 V c) 5 t (idleAt1_5_B t hc0 hc1) (noFlush1_5_B t hc0 hc1)]
      obtain ⟨p0, p1, p2⟩ := piecesB c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (prev1 V c t).2.1 (prev1 V c t).2.2.1 (prev1 V c t).2.2.2.1 (prev1 V c t).2.2.2.2 hc0 hc1 _ rfl
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, HS3⟩
      isplitl [HR HS0 HS1 HS2 HS3 Hg]
      · isplitr [Hg]
        · isplitl [HR]; · iexact HR
          isplitl [HS0]
          · unfold owns; iexists _; isplitr
            swap; · iexact HS0
            ipureintro; exact p0 _ _
          isplitl [HS1]
          · unfold owns; iexists _; isplitr
            swap; · iexact HS1
            ipureintro; exact p1 _ _
          isplitl [HS2]
          · unfold owns; iexists _; isplitr
            swap; · iexact HS2
            ipureintro; exact p2 _ _
          iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c :=
  PhiS1_forget V c _ _

theorem hout1 (c : Dev nD) : (dat1 V c).Φ (Fin.last cfg1.N) ⊢ Pipeline.ΦA spec1 c :=
  Phi_out1 V c _ (by rw [Fin.val_last]; have : cfg1.N = 32 := N_1; omega)

end

end Cert.Kernel.H

end
-- ==== Proof.K.Run.lean ====
import proofs.«424806_j56435870269801_3_alg».proof.Proof.Gen.Kernel.Launch
import proofs.«424806_j56435870269801_3_alg».proof.Proof.Gen.Kernel.Skeleton
import proofs.«424806_j56435870269801_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424806_j56435870269801_3_alg».proof.Proof.Gen.Kernel.Regions
import proofs.«424806_j56435870269801_3_alg».proof.Proof.K.R0
import proofs.«424806_j56435870269801_3_alg».proof.Proof.K.R1Dat

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Function.update (W3 m c) (Proc.devRef .tc main_v13) ((dat1 (V3 m) c).arrAt 5 cfg1.N)
abbrev V4 : (c : Dev nD) → (b : Ref sig .tc) → Buf (Elt F) ((c : Thread nD τ).loc b) := fun c b => W4 m c b
theorem W4_out (c : Dev nD) : W4 m c (Proc.devRef .tc main_v13) = (dat1 (V3 m) c).arrAt 5 cfg1.N := by
  unfold W4; exact Function.update_self ..
theorem W4_of_ne (c : Dev nD) (b : Ref sig .tc) (hb : b ≠ main_v13) :
    W4 m c (Proc.devRef .tc b) = W3 m c (Proc.devRef .tc b) := by
  unfold W4; exact Function.update_of_ne (StableHlo.devRef_ne_of_ne hb) ..

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

theorem W4_kept (c : Dev nD) (r : Ref sig .tc) (h13 : r ≠ main_v13) (h1 : r ∉ hostOps1_W) (h0 : ∀ w, Pipeline.arrRef spec0 w ≠ r)
    (h : r ∉ hostOps0_W) : W4 m c r = m ((c : Thread nD τ).loc r) :=
  (W4_of_ne m c r h13).trans <| (W3_of m c r h1).trans <| (W2_of_ne m c r h0).trans <| (W1_of m c r h).trans rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section Arrays1
variable {m}
variable (c : Dev nD)

local macro "ℓ[" b:term "]" : term => `(((c : Thread nD τ).loc $b))

theorem arrBufs1_eq (G : (b : Ref sig .tc) → Buf (Elt F) ((c : Thread nD τ).loc b)) :
    (Pipeline.arrBufs (Ix := Unit) (Name := ℕ) (U := UR sig nD τ) (Lvl := ℕ) spec1 c G : sProp 𝕄)
      = iprop((ℓ[main_arg0] ↦{fullShare} G main_arg0) ∗ (ℓ[main_v6] ↦{fullShare} G main_v6) ∗ (ℓ[main_v4] ↦{fullShare} G main_v4)
          ∗ (ℓ[main_v12] ↦{fullShare} G main_v12) ∗ (ℓ[main_v13] ↦{fullShare} G main_v13)) := by
  unfold Pipeline.arrBufs
  exact Idealize.SL.BI.bigSep_eq_bigSepL_of_eq [main_arg0, main_v6, main_v4, main_v12, main_v13] (S := Finset.univ.image (Pipeline.arrRef spec1)) (by decide) (by decide) _

theorem arrays1_eq (V : (c : Dev nD) → (b : Ref sig .tc) → Buf (Elt F) ((c : Thread nD τ).loc b))
    (Fw : (w : Fin cfg1.W) → Buf (Elt F) ((cfg1.win w).arr.view.loc (c : Thread nD τ))) :
    ((dat1 V c).arrays Fw : sProp 𝕄)
      = iprop((ℓ[main_arg0] ↦{fullShare} Fw 0) ∗ (ℓ[main_v6] ↦{fullShare} Fw 1) ∗ (ℓ[main_v4] ↦{fullShare} Fw 2)
          ∗ (ℓ[main_v12] ↦{fullShare.left} Fw 3) ∗ (ℓ[main_v12] ↦{fullShare.right} Fw 4) ∗ (ℓ[main_v13] ↦{fullShare} Fw 5)) := by
  unfold Dat.arrays
  rw [bigSep_W1]
  rw [(arr_whole1 0).set_eq_univ, (arr_whole1 1).set_eq_univ, (arr_whole1 2).set_eq_univ, (arr_whole1 3).set_eq_univ,
    (arr_whole1 5).set_eq_univ]
  rfl

theorem arrays1_of_bufs (V : (c : Dev nD) → (b : Ref sig .tc) → Buf (Elt F) ((c : Thread nD τ).loc b))
    (G : (b : Ref sig .tc) → Buf (Elt F) ((c : Thread nD τ).loc b))
    (Fw : (w : Fin cfg1.W) → Buf (Elt F) ((cfg1.win w).arr.view.loc (c : Thread nD τ)))
    (h0 : Fw 0 = G main_arg0) (h1 : Fw 1 = G main_v6) (h2 : Fw 2 = G main_v4) (h3 : Fw 3 = G main_v12) (h4 : Fw 4 = G main_v12) (h5 : Fw 5 = G main_v13) :
    (Pipeline.arrBufs (Ix := Unit) (Name := ℕ) (U := UR sig nD τ) (Lvl := ℕ) spec1 c G : sProp 𝕄) ⊢ (dat1 V c).arrays Fw := by
  rw [arrBufs1_eq, arrays1_eq, h0, h1, h2, h3, h4, h5]
  iintro ⟨H0, H1, H2, H3, H5⟩
  ihave H3' := (pointsTo_share (PosShare.mem_left_op_right fullShare)).1 $$ H3
  icases H3' with ⟨H3l, H3r⟩
  isplitl [H0]; · iexact H0
  isplitl [H1]; · iexact H1
  isplitl [H2]; · iexact H2
  isplitl [H3l]; · iexact H3l
  isplitl [H3r]; · iexact H3r
  iexact H5

theorem bufs_of_arrays1 (V : (c : Dev nD) → (b : Ref sig .tc) → Buf (Elt F) ((c : Thread nD τ).loc b))
    (G : (b : Ref sig .tc) → Buf (Elt F) ((c : Thread nD τ).loc b))
    (Fw : (w : Fin cfg1.W) → Buf (Elt F) ((cfg1.win w).arr.view.loc (c : Thread nD τ)))
    (h0 : Fw 0 = G main_arg0) (h1 : Fw 1 = G main_v6) (h2 : Fw 2 = G main_v4) (h3 : Fw 3 = G main_v12) (h4 : Fw 4 = G main_v12) (h5 : Fw 5 = G main_v13) :
    ((dat1 V c).arrays Fw : sProp 𝕄) ⊢ Pipeline.arrBufs (Ix := Unit) (Name := ℕ) (U := UR sig nD τ) (Lvl := ℕ) spec1 c G := by
  rw [arrBufs1_eq, arrays1_eq, h0, h1, h2, h3, h4, h5]
  iintro ⟨H0, H1, H2, H3l, H3r, H5⟩
  isplitl [H0]; · iexact H0
  isplitl [H1]; · iexact H1
  isplitl [H2]; · iexact H2
  isplitl [H3l H3r]
  · iapply (pointsTo_share (PosShare.mem_left_op_right fullShare)).2
    isplitl [H3l]; · iexact H3l
    iexact H3r
  iexact H5

end Arrays1

set_option backward.isDefEq.respectTransparency.types false in

def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0) ∗ Pipeline.unscopedRest spec1 c (V3 m c)) := by
      rw [Pipeline.unscopedBufs_split₀ cfgs 1 winFacts₀1.arr_unscoped c (V3 m c)]
      exact sep_mono (arrays1_of_bufs c (V3 m) (V3 m c) _ rfl rfl rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V3 m c))
        ⊢ (unscopedBufs (Ix := Unit) (Name := ℕ) (U := UR sig nD τ) (Lvl := ℕ) c (V4 m c) : sProp 𝕄) := by
      rw [Pipeline.unscopedBufs_split₀ cfgs 1 winFacts₀1.arr_unscoped c (V4 m c)]
      refine sep_mono (bufs_of_arrays1 c (V3 m) (V4 m c) _ ?_ ?_ ?_ ?_ ?_ ?_) (Entails.of_eq ?_)
      · exact (((dat1 (V3 m) c).arrAt_in 0 rfl _).trans (A_eq1 (V3 m) c 0)).trans (W4_of_ne m c main_arg0 (by decide)).symm
      · exact (((dat1 (V3 m) c).arrAt_in 1 rfl _).trans (A_eq1 (V3 m) c 1)).trans (W4_of_ne m c main_v6 (by decide)).symm
      · exact (((dat1 (V3 m) c).arrAt_in 2 rfl _).trans (A_eq1 (V3 m) c 2)).trans (W4_of_ne m c main_v4 (by decide)).symm
      · exact (((dat1 (V3 m) c).arrAt_in 3 rfl _).trans (A_eq1 (V3 m) c 3)).trans (W4_of_ne m c main_v12 (by decide)).symm
      · exact (((dat1 (V3 m) c).arrAt_in 4 rfl _).trans (A_eq1 (V3 m) c 4)).trans (W4_of_ne m c main_v12 (by decide)).symm
      · exact (W4_out m c).symm
      · unfold Pipeline.unscopedRest
        exact bigSep_congr fun b hb => by
          rw [show V4 m c b = V3 m c b from W4_of_ne m c b fun e => (Finset.mem_sdiff.mp hb).2 (Finset.mem_image.mpr ⟨5, Finset.mem_univ _, e.symm⟩)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

theorem result_eq (c : Dev nD) : W4 m c (Proc.devRef .tc main_v13) = (dat1 (V3 m) c).arrAt 5 cfg1.N := W4_out m c

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    refine ⟨?_, ?_, ?_, ?_, ?_, ?_, ?_⟩ <;>
      exact (h c _ (mem_uc _ (by decide))).trans (W4_kept m c _ (by decide) (by decide) (by decide) (by decide)))
    (run_all m ρ)

end Cert.Kernel.H

end
-- ==== Proof.KI.R0.lean ====
import proofs.«424806_j56435870269801_3_alg».proof.Proof.Gen.KernelIdeal.Launch
import proofs.«424806_j56435870269801_3_alg».proof.Proof.Gen.KernelIdeal.Skeleton
import proofs.«424806_j56435870269801_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x1024 := Rect.unit (s := S512x1024) ![0, 0] S512x1024.size inb_S512x1024_S512x1024_0_0
abbrev r0_1 : Rect S1024x2048 := Rect.unit (s := S1024x2048) ![0, 0] S1024x2048.size inb_S1024x2048_S1024x2048_0_0
abbrev r0_2 : Rect S2048 := Rect.unit (s := S2048) ![0] S2048.size inb_S2048_S2048_0
abbrev r0_3 : Rect S512x2048 := Rect.unit (s := S512x2048) ![0, 0] S512x2048.size inb_S512x2048_S512x2048_0_0

def out0_3 (x0 : Vec F S512x1024 .f32) (x1 : Vec F S1024x2048 .bf16) (x2 : Vec F S2048 .f32) : Vec F S512x2048 .bf16 :=
  View.canon [⟨r0_3, k0_pay1 (View.ld x0 r0_0) (View.ld x1 r0_1) (View.ld x2 r0_2)⟩]

theorem cover0_3 (p0 : Vec F S512x2048 .bf16) (y : S512x2048.Idx) :
    ∃ pc ∈ ([⟨r0_3, p0⟩] : List (View.Piece (Elt F) S512x2048 .bf16)), y ∈ pc.1.set :=
  View.cover_of_tiled [⟨r0_3, p0⟩] S512x2048.size (by rfl) y

theorem sound_kernel0 (c : Dev nD) (E : Set ℕ) (i : grid0.Coords) (arg1 : Memref sig .tc .vmem S512x1024 .f32) (harg1 : arg1.IsWhole)
    (arg2 : Memref sig .tc .vmem S1024x2048 .bf16) (harg2 : arg2.IsWhole) (arg3 : Memref sig .tc .vmem S2048 .f32) (harg3 : arg3.IsWhole)
    (arg4 : Memref sig .tc .vmem S512x2048 .bf16) (harg4 : arg4.IsWhole)
    (x0 : Vec F S512x1024 .f32) (x1 : Vec F S1024x2048 .bf16) (x2 : Vec F S2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__kv_proj_kernel i arg1 harg1 arg2 harg2 arg3 harg3 arg4 harg4) K := by
  simp only [cc0__kv_proj_kernel_eq_skeleton]; unfold cc0__kv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Regions

end Cert.KernelIdeal.H

end
-- ==== Proof.KI.R1Blk.lean ====
import proofs.«424806_j56435870269801_3_alg».proof.Proof.Gen.KernelIdeal.Launch
import proofs.«424806_j56435870269801_3_alg».proof.Proof.Gen.KernelIdeal.Skeleton
import proofs.«424806_j56435870269801_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end

end Cert.KernelIdeal.H

end
-- ==== Proof.KI.R1Runs.lean ====
import proofs.«424806_j56435870269801_3_alg».proof.Proof.KI.R1Blk

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem idleAt1_5_A : ∀ t : Fin cfg1.N, cond1_0 (grid1.coords t) → ¬cond1_1 (grid1.coords t) → cfg1.idle 5 (grid1.coords t) = true := by decide +kernel

theorem noFlush1_5_A : ∀ t : Fin cfg1.N, cond1_0 (grid1.coords t) → ¬cond1_1 (grid1.coords t) → (cfg1.win 5).flush t = false := by decide +kernel

theorem idleAt1_5_B : ∀ t : Fin cfg1.N, ¬cond1_0 (grid1.coords t) → ¬cond1_1 (grid1.coords t) → cfg1.idle 5 (grid1.coords t) = true := by decide +kernel

theorem noFlush1_5_B : ∀ t : Fin cfg1.N, ¬cond1_0 (grid1.coords t) → ¬cond1_1 (grid1.coords t) → (cfg1.win 5).flush t = false := by decide +kernel

theorem liveAt1_5_C : ∀ t : Fin cfg1.N, ¬cond1_0 (grid1.coords t) → cond1_1 (grid1.coords t) → cfg1.idle 5 (grid1.coords t) = false := by decide +kernel

abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)

abbrev scM1_0 : Memref sig .tc .vmem S1x1024x1 .f32 := Memref.whole cc1_scratch0
abbrev scM1_1 : Memref sig .tc .vmem S1x1024x1 .f32 := Memref.whole cc1_scratch1
abbrev scM1_2 : Memref sig .tc .vmem S1x1024x1024 .f32 := Memref.whole cc1_scratch2
abbrev scM1_3 : Memref sig .tc .vmem S1x1024x1024 .bf16 := Memref.whole cc1_scratch3

theorem bodyAt1_eq (t : Fin cfg1.N) : bodyAt1 (F := F) t
    = cc1__flash_attn_kernel (grid1.coords t) (ms1_0 t) (hs1_0 t) (ms1_1 t) (hs1_1 t) (ms1_2 t) (hs1_2 t) (ms1_3 t) (hs1_3 t) (ms1_4 t) (hs1_4 t) (ms1_5 t) (hs1_5 t)
        scM1_0 (Memref.isWhole_whole _) scM1_1 (Memref.isWhole_whole _) scM1_2 (Memref.isWhole_whole _) scM1_3 (Memref.isWhole_whole _) := rfl

end Cert.KernelIdeal.H

end
-- ==== Proof.KI.R1RunA.lean ====
import proofs.«424806_j56435870269801_3_alg».proof.Proof.KI.R1Runs

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

noncomputable def kernelRun1_A (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (arg12 : Memref sig .tc .vmem S1x1024x1024 .bf16) (harg12 : arg12.IsWhole) (hc0 : cond1_0 i) (hc1 : ¬cond1_1 i)
    (x0 : Vec F S1x1024x1024 .f32) (x1 : Vec F S1024x1024 .bf16) (x2 : Vec F S1024 .f32) (x3 : Vec F S1x512x1024 .bf16) (x4 : Vec F S1x512x1024 .bf16) :
    Σ' (L5 : List (View.Piece (Elt F) S1x1024x1024 .f32)) (LS0 : List (View.Piece (Elt F) S1x1024x1 .f32)) (LS1 : List (View.Piece (Elt F) S1x1024x1 .f32)) (LS2 : List (View.Piece (Elt F) S1x1024x1024 .f32)), { LS3 : List (View.Piece (Elt F) S1x1024x1024 .bf16) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K } := by
  refine ⟨[], ?_, ?_, ?_, ?_, fun xi5 E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.KernelIdeal.H

end
-- ==== Proof.KI.R1RunB.lean ====
import proofs.«424806_j56435870269801_3_alg».proof.Proof.KI.R1RunA

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

noncomputable def kernelRun1_B (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (arg12 : Memref sig .tc .vmem S1x1024x1024 .bf16) (harg12 : arg12.IsWhole) (hc0 : ¬cond1_0 i) (hc1 : ¬cond1_1 i)
    (x0 : Vec F S1x1024x1024 .f32) (x1 : Vec F S1024x1024 .bf16) (x2 : Vec F S1024 .f32) (x3 : Vec F S1x512x1024 .bf16) (x4 : Vec F S1x512x1024 .bf16) (xs0 : Vec F S1x1024x1 .f32) (xs1 : Vec F S1x1024x1 .f32) (xs2 : Vec F S1x1024x1024 .f32) (xs3 : Vec F S1x1024x1024 .bf16) :
    Σ' (L5 : List (View.Piece (Elt F) S1x1024x1024 .f32)) (LS0 : List (View.Piece (Elt F) S1x1024x1 .f32)) (LS1 : List (View.Piece (Elt F) S1x1024x1 .f32)), { LS2 : List (View.Piece (Elt F) S1x1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K } := by
  refine ⟨[], ?_, ?_, ?_, fun xi5 E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; isplitr; · ipureintro; exact harg12.read_unread _
    iexact HS3

end Cert.KernelIdeal.H

end
-- ==== Proof.KI.R1RunC.lean ====
import proofs.«424806_j56435870269801_3_alg».proof.Proof.KI.R1RunB

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

noncomputable def kernelRun1_C (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (arg12 : Memref sig .tc .vmem S1x1024x1024 .bf16) (harg12 : arg12.IsWhole) (hc0 : ¬cond1_0 i) (hc1 : cond1_1 i)
    (x0 : Vec F S1x1024x1024 .f32) (x1 : Vec F S1024x1024 .bf16) (x2 : Vec F S1024 .f32) (x3 : Vec F S1x512x1024 .bf16) (x4 : Vec F S1x512x1024 .bf16) (xs0 : Vec F S1x1024x1 .f32) (xs1 : Vec F S1x1024x1 .f32) (xs2 : Vec F S1x1024x1024 .f32) (xs3 : Vec F S1x1024x1024 .bf16) :
    Σ' (L5 : List (View.Piece (Elt F) S1x1024x1024 .f32)) (LS0 : List (View.Piece (Elt F) S1x1024x1 .f32)) (LS1 : List (View.Piece (Elt F) S1x1024x1 .f32)), { LS2 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__flash_attn_kernel_eq_skeleton]; unfold cc1__flash_attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg12.read_unread _
    iexact HS3

end Cert.KernelIdeal.H

end
-- ==== Proof.KI.R1Dat.lean ====
import proofs.«424806_j56435870269801_3_alg».proof.Proof.KI.R1RunC
import Idealize.ShloMosaic.Lib.Pipeline.Value

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def otherRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem PhiA1_eq (c : Dev nD) :
    (Pipeline.ΦA spec1 c : sProp 𝕄)
      = iprop(iprop(otherRest (F := F) c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; unfold otherRest; simp only [scM1_0, scM1_1, scM1_2, scM1_3, owns_whole]
  have assoc : ∀ (P Q R : sProp 𝕄), iprop((P ∗ Q) ∗ R) = iprop(P ∗ Q ∗ R) :=
    fun _ _ _ => Idealize.SL.BI.Entails.antisymm Idealize.SL.BI.sep_assoc Idealize.SL.BI.sep_assoc'
  simp only [assoc]; rfl

theorem r1_hz3 : (![0, 0, 0] : Fin 3 → Nat) = fun _ => 0 := funext fun a => by fin_cases a <;> rfl
theorem r1_hz2 : (![0, 0] : Fin 2 → Nat) = fun _ => 0 := funext fun a => by fin_cases a <;> rfl
theorem r1_hz1 : (![0] : Fin 1 → Nat) = fun _ => 0 := funext fun a => by fin_cases a <;> rfl

/-- Pieces that tile a shape, written over anything, read back as their canonical function. -/
theorem read_tiled {S : Shape} {e : EltTy} (v : View sig .tc .vmem S e) (f : v.ty.Contents (Elt F)) (L : List (View.Piece (Elt F) S e))
    (h : View.Piece.tiledL L S.size = true) : v.read (Elt F) (v.writes (Elt F) f L) = View.canon L :=
  View.read_writes_eq_canon v f L (View.cover_of_tiledL L S.size h)

/-- One key tile's update of a query tile's carried state (running maximum m, running sum l, accumulator a, query tile q): the candidate output a'/l', then m', l', a' and q. -/
def upd1 (x3 x4 : Vec F S1x512x1024 .bf16) (m l : Vec F S1x1024x1 .f32) (a : Vec F S1x1024x1024 .f32) (q : Vec F S1x1024x1024 .bf16) :
    Vec F S1x1024x1024 .f32 × Vec F S1x1024x1 .f32 × Vec F S1x1024x1 .f32 × Vec F S1x1024x1024 .f32 × Vec F S1x1024x1024 .bf16 :=
  (k1_pay3 (k1_pay1 (k1_pay8 x4) (k1_pay11 q x3 m m) (k1_pay12 q x3 m) a) (k1_pay13 q x3 m m l), k1_pay2 (k1_pay10 q x3 m), k1_pay13 q x3 m m l, k1_pay1 (k1_pay8 x4) (k1_pay11 q x3 m m) (k1_pay12 q x3 m) a, q)

section
variable (c : Dev nD) (i : grid1.Coords) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x1024 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x1024x1024 .f32) (harg11 : arg11.IsWhole) (arg12 : Memref sig .tc .vmem S1x1024x1024 .bf16) (harg12 : arg12.IsWhole)
  (x0 : Vec F S1x1024x1024 .f32) (x1 : Vec F S1024x1024 .bf16) (x2 : Vec F S1024 .f32) (x3 x4 : Vec F S1x512x1024 .bf16)
  (m l : Vec F S1x1024x1 .f32) (a : Vec F S1x1024x1024 .f32) (q : Vec F S1x1024x1024 .bf16)

/-- The first key tile resets the state and projects the query tile before it updates: every scratch buffer reads back as the update of the reset state. -/
theorem piecesA (hc0 : cond1_0 i) (hc1 : ¬cond1_1 i) : ∀ r, r = kernelRun1_A c i arg3 harg3 arg4 harg4 arg5 harg5 arg6 harg6 arg7 harg7 arg8 harg8 arg9 harg9 arg10 harg10 arg11 harg11 arg12 harg12 hc0 hc1 x0 x1 x2 x3 x4 →
    (∀ (v : View sig .tc .vmem S1x1024x1 .f32) (f : v.ty.Contents (Elt F)), v.read (Elt F) (v.writes (Elt F) f r.2.1) = k1_pay2 (k1_pay10 (k1_pay7 x0 x1 x2) x3 k1_pay4))
    ∧ (∀ (v : View sig .tc .vmem S1x1024x1 .f32) (f : v.ty.Contents (Elt F)), v.read (Elt F) (v.writes (Elt F) f r.2.2.1) = k1_pay13 (k1_pay7 x0 x1 x2) x3 k1_pay4 k1_pay4 k1_pay5)
    ∧ (∀ (v : View sig .tc .vmem S1x1024x1024 .f32) (f : v.ty.Contents (Elt F)), v.read (Elt F) (v.writes (Elt F) f r.2.2.2.1) = k1_pay1 (k1_pay8 x4) (k1_pay11 (k1_pay7 x0 x1 x2) x3 k1_pay4 k1_pay4) (k1_pay12 (k1_pay7 x0 x1 x2) x3 k1_pay4) k1_pay6)
    ∧ (∀ (v : View sig .tc .vmem S1x1024x1024 .bf16) (f : v.ty.Contents (Elt F)), v.read (Elt F) (v.writes (Elt F) f r.2.2.2.2.1) = k1_pay7 x0 x1 x2) := by
  rintro _ rfl
  refine ⟨fun v f => ?_, fun v f => ?_, fun v f => ?_, fun v f => ?_⟩ <;>
  (rw [read_tiled _ _ _ (by sl_kernel_rfl)]; unfold kernelRun1_A; dsimp only; sl_unfold_words
   first
     | rw [View.canon_unit_zero (S := S1x1024x1) r1_hz3] | rw [View.canon_unit_zero (S := S1x1024x1024) r1_hz3]
     | rw [View.canon_cons_unit_zero (S := S1x1024x1) r1_hz3] | rw [View.canon_cons_unit_zero (S := S1x1024x1024) r1_hz3]
   simp only [View.readAt_eq_ld, harg3.read_unread, harg4.read_unread, harg5.read_unread, harg6.read_unread, harg7.read_unread, harg8.read_unread, harg9.read_unread, harg10.read_unread, harg11.read_unread, harg12.read_unread,
    View.ld_unit_zero (S := S1x1024x1024) r1_hz3, View.ld_unit_zero (S := S1x512x1024) r1_hz3, View.ld_unit_zero (S := S1x1024x1) r1_hz3, View.ld_unit_zero (S := S1024x1024) r1_hz2, View.ld_unit_zero (S := S1024) r1_hz1,
    View.readCov_unit_zero (S := S1x1024x1024) _ r1_hz3, View.readCov_unit_zero (S := S1x1024x1) _ r1_hz3])

/-- A middle key tile updates the state it finds. -/
theorem piecesB (hc0 : ¬cond1_0 i) (hc1 : ¬cond1_1 i) : ∀ r, r = kernelRun1_B c i arg3 harg3 arg4 harg4 arg5 harg5 arg6 harg6 arg7 harg7 arg8 harg8 arg9 harg9 arg10 harg10 arg11 harg11 arg12 harg12 hc0 hc1 x0 x1 x2 x3 x4 m l a q →
    (∀ (v : View sig .tc .vmem S1x1024x1 .f32) (f : v.ty.Contents (Elt F)), v.read (Elt F) (v.writes (Elt F) f r.2.1) = k1_pay2 (k1_pay10 q x3 m))
    ∧ (∀ (v : View sig .tc .vmem S1x1024x1 .f32) (f : v.ty.Contents (Elt F)), v.read (Elt F) (v.writes (Elt F) f r.2.2.1) = k1_pay13 q x3 m m l)
    ∧ (∀ (v : View sig .tc .vmem S1x1024x1024 .f32) (f : v.ty.Contents (Elt F)), v.read (Elt F) (v.writes (Elt F) f r.2.2.2.1) = k1_pay1 (k1_pay8 x4) (k1_pay11 q x3 m m) (k1_pay12 q x3 m) a) := by
  rintro _ rfl
  refine ⟨fun v f => ?_, fun v f => ?_, fun v f => ?_⟩ <;>
  (rw [read_tiled _ _ _ (by sl_kernel_rfl)]; unfold kernelRun1_B; dsimp only; sl_unfold_words
   first
     | rw [View.canon_unit_zero (S := S1x1024x1) r1_hz3] | rw [View.canon_unit_zero (S := S1x1024x1024) r1_hz3]
     | rw [View.canon_cons_unit_zero (S := S1x1024x1) r1_hz3] | rw [View.canon_cons_unit_zero (S := S1x1024x1024) r1_hz3]
   simp only [View.readAt_eq_ld, harg3.read_unread, harg4.read_unread, harg5.read_unread, harg6.read_unread, harg7.read_unread, harg8.read_unread, harg9.read_unread, harg10.read_unread, harg11.read_unread, harg12.read_unread,
    View.ld_unit_zero (S := S1x1024x1024) r1_hz3, View.ld_unit_zero (S := S1x512x1024) r1_hz3, View.ld_unit_zero (S := S1x1024x1) r1_hz3, View.ld_unit_zero (S := S1024x1024) r1_hz2, View.ld_unit_zero (S := S1024) r1_hz1,
    View.readCov_unit_zero (S := S1x1024x1024) _ r1_hz3, View.readCov_unit_zero (S := S1x1024x1) _ r1_hz3])

/-- The last key tile does the same and also writes the output tile, the new accumulator over the new running sum. -/
theorem piecesC (hc0 : ¬cond1_0 i) (hc1 : cond1_1 i) : ∀ r, r = kernelRun1_C c i arg3 harg3 arg4 harg4 arg5 harg5 arg6 harg6 arg7 harg7 arg8 harg8 arg9 harg9 arg10 harg10 arg11 harg11 arg12 harg12 hc0 hc1 x0 x1 x2 x3 x4 m l a q →
    (∀ (v : View sig .tc .vmem S1x1024x1 .f32) (f : v.ty.Contents (Elt F)), v.read (Elt F) (v.writes (Elt F) f r.2.1) = k1_pay2 (k1_pay10 q x3 m))
    ∧ (∀ (v : View sig .tc .vmem S1x1024x1 .f32) (f : v.ty.Contents (Elt F)), v.read (Elt F) (v.writes (Elt F) f r.2.2.1) = k1_pay13 q x3 m m l)
    ∧ (∀ (v : View sig .tc .vmem S1x1024x1024 .f32) (f : v.ty.Contents (Elt F)), v.read (Elt F) (v.writes (Elt F) f r.2.2.2.1) = k1_pay1 (k1_pay8 x4) (k1_pay11 q x3 m m) (k1_pay12 q x3 m) a)
    ∧ (∀ (v : View sig .tc .vmem S1x1024x1024 .f32) (f : v.ty.Contents (Elt F)), v.read (Elt F) (v.writes (Elt F) f r.1) = k1_pay3 (k1_pay1 (k1_pay8 x4) (k1_pay11 q x3 m m) (k1_pay12 q x3 m) a) (k1_pay13 q x3 m m l)) := by
  rintro _ rfl
  refine ⟨fun v f => ?_, fun v f => ?_, fun v f => ?_, fun v f => ?_⟩ <;>
  (rw [read_tiled _ _ _ (by sl_kernel_rfl)]; unfold kernelRun1_C; dsimp only; sl_unfold_words
   first
     | rw [View.canon_unit_zero (S := S1x1024x1) r1_hz3] | rw [View.canon_unit_zero (S := S1x1024x1024) r1_hz3]
     | rw [View.canon_cons_unit_zero (S := S1x1024x1) r1_hz3] | rw [View.canon_cons_unit_zero (S := S1x1024x1024) r1_hz3]
   simp only [View.readAt_eq_ld, harg3.read_unread, harg4.read_unread, harg5.read_unread, harg6.read_unread, harg7.read_unread, harg8.read_unread, harg9.read_unread, harg10.read_unread, harg11.read_unread, harg12.read_unread,
    View.ld_unit_zero (S := S1x1024x1024) r1_hz3, View.ld_unit_zero (S := S1x512x1024) r1_hz3, View.ld_unit_zero (S := S1x1024x1) r1_hz3, View.ld_unit_zero (S := S1024x1024) r1_hz2, View.ld_unit_zero (S := S1024) r1_hz1,
    View.readCov_unit_zero (S := S1x1024x1024) _ r1_hz3, View.readCov_unit_zero (S := S1x1024x1) _ r1_hz3])

end

section
variable (V : (c : Dev nD) → (b : Ref sig .tc) → Buf (Elt F) ((c : Thread nD τ).loc b))

/-- The output tile candidate and the carried state after position n: the state restarts where a query tile begins (n ≡ 0 mod 4) and is otherwise the update of what position n - 1 left. -/
def outsAt1 (c : Dev nD) : (n : ℕ) → n < cfg1.N → Vec F S1x1024x1024 .f32 × Vec F S1x1024x1 .f32 × Vec F S1x1024x1 .f32 × Vec F S1x1024x1024 .f32 × Vec F S1x1024x1024 .bf16
  | 0, hn => upd1 (iblk1 V c 3 ⟨0, hn⟩) (iblk1 V c 4 ⟨0, hn⟩) k1_pay4 k1_pay5 k1_pay6 (k1_pay7 (iblk1 V c 0 ⟨0, hn⟩) (iblk1 V c 1 ⟨0, hn⟩) (iblk1 V c 2 ⟨0, hn⟩))
  | n + 1, hn =>
    if (n + 1) % 4 = 0 then
      upd1 (iblk1 V c 3 ⟨n + 1, hn⟩) (iblk1 V c 4 ⟨n + 1, hn⟩) k1_pay4 k1_pay5 k1_pay6 (k1_pay7 (iblk1 V c 0 ⟨n + 1, hn⟩) (iblk1 V c 1 ⟨n + 1, hn⟩) (iblk1 V c 2 ⟨n + 1, hn⟩))
    else
      upd1 (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2

theorem outsAt1_A (c : Dev nD) (t : Fin cfg1.N) (h0 : t.val % 4 = 0) :
    outsAt1 V c t.val t.isLt = upd1 (iblk1 V c 3 t) (iblk1 V c 4 t) k1_pay4 k1_pay5 k1_pay6 (k1_pay7 (iblk1 V c 0 t) (iblk1 V c 1 t) (iblk1 V c 2 t)) := by
  obtain ⟨n, hn⟩ := t
  cases n with
  | zero => rfl
  | succ n => exact if_pos h0

abbrev prev1 (c : Dev nD) (t : Fin cfg1.N) := outsAt1 V c (t.val - 1) (Nat.lt_of_le_of_lt (Nat.sub_le _ _) t.isLt)

theorem outsAt1_BC (c : Dev nD) (t : Fin cfg1.N) (h0 : ¬t.val % 4 = 0) :
    outsAt1 V c t.val t.isLt = upd1 (iblk1 V c 3 t) (iblk1 V c 4 t) (prev1 V c t).2.1 (prev1 V c t).2.2.1 (prev1 V c t).2.2.2.1 (prev1 V c t).2.2.2.2 := by
  obtain ⟨n, hn⟩ := t
  cases n with
  | zero => exact absurd (Nat.zero_mod _) h0
  | succ n => exact if_neg h0

/-- The carried state at named contents, beside the resources the body never touches. -/
def PhiAt (c : Dev nD) (p : Vec F S1x1024x1024 .f32 × Vec F S1x1024x1 .f32 × Vec F S1x1024x1 .f32 × Vec F S1x1024x1024 .f32 × Vec F S1x1024x1024 .bf16) : sProp 𝕄 :=
  iprop(iprop(otherRest (F := F) c ∗ owns (c : Thread nD τ) scM1_0 fullShare p.2.1 ∗ owns (c : Thread nD τ) scM1_1 fullShare p.2.2.1 ∗ owns (c : Thread nD τ) scM1_2 fullShare p.2.2.2.1 ∗ owns (c : Thread nD τ) scM1_3 fullShare p.2.2.2.2) ∗ (∃ r, prngReg c r))

theorem PhiAt_forget (c : Dev nD) (p : Vec F S1x1024x1024 .f32 × Vec F S1x1024x1 .f32 × Vec F S1x1024x1 .f32 × Vec F S1x1024x1024 .f32 × Vec F S1x1024x1024 .bf16) : PhiAt (F := F) c p ⊢ Pipeline.ΦA spec1 c := by
  unfold PhiAt; rw [PhiA1_eq]
  iintro ⟨⟨HR, HS0, HS1, HS2, HS3⟩, Hg⟩
  isplitr [Hg]
  · isplitl [HR]; · iexact HR
    isplitl [HS0]; · iexists _; iexact HS0
    isplitl [HS1]; · iexists _; iexact HS1
    isplitl [HS2]; · iexists _; iexact HS2
    iexists _; iexact HS3
  iexact Hg

/-- The region invariant before position n: the entry invariant at first, then the scratch buffers at what the position before left. -/
def PhiS1 (c : Dev nD) : (n : ℕ) → n ≤ cfg1.N → sProp 𝕄
  | 0, _ => Pipeline.ΦA spec1 c
  | n + 1, hn => PhiAt c (outsAt1 V c n hn)

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) : PhiS1 V c n h = PhiAt c (outsAt1 V c (n - 1) (by omega)) := by
  cases n with
  | zero => exact absurd rfl hz
  | succ n => rfl

/-- Named contents can always be forgotten: the entry invariant only says the scratch buffers hold something. -/
theorem PhiS1_forget (c : Dev nD) (n : ℕ) (h : n ≤ cfg1.N) : PhiS1 V c n h ⊢ Pipeline.ΦA spec1 c := by
  cases n with
  | zero => exact Idealize.SL.BI.Entails.refl _
  | succ n => exact PhiAt_forget c _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨3, _⟩ => fullShare.left
    | ⟨4, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

theorem leaves1_0 (c : Dev nD) (t : Fin cfg1.N) : (dat1 V c).leavesExact 0 t = owns (c : Thread nD τ) (ms1_0 t) fullShare (iblk1 V c 0 t) := by
  unfold Dat.leavesExact; rw [liveAt1_0 t]; rfl
theorem leaves1_1 (c : Dev nD) (t : Fin cfg1.N) : (dat1 V c).leavesExact 1 t = owns (c : Thread nD τ) (ms1_1 t) fullShare (iblk1 V c 1 t) := by
  unfold Dat.leavesExact; rw [liveAt1_1 t]; rfl
theorem leaves1_2 (c : Dev nD) (t : Fin cfg1.N) : (dat1 V c).leavesExact 2 t = owns (c : Thread nD τ) (ms1_2 t) fullShare (iblk1 V c 2 t) := by
  unfold Dat.leavesExact; rw [liveAt1_2 t]; rfl
theorem leaves1_3 (c : Dev nD) (t : Fin cfg1.N) : (dat1 V c).leavesExact 3 t = owns (c : Thread nD τ) (ms1_3 t) fullShare (iblk1 V c 3 t) := by
  unfold Dat.leavesExact; rw [liveAt1_3 t]; rfl
theorem leaves1_4 (c : Dev nD) (t : Fin cfg1.N) : (dat1 V c).leavesExact 4 t = owns (c : Thread nD τ) (ms1_4 t) fullShare (iblk1 V c 4 t) := by
  unfold Dat.leavesExact; rw [liveAt1_4 t]; rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- The body at any point: the inputs are handed back as found; the invariant lends the carried state (the first key tile takes it at anything) and takes it back at the point's update; the output tile is written only at the last key tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1; rw [bodyAt1_eq]
  simp only [before1_0, before1_1, before1_2, before1_3, before1_4]
  rw [show (dat1 V c).owesAt () t.succ = (dat1 V c).owesAt () t.castSucc from rfl]
  rw [show (dat1 V c).Φ t.succ = PhiAt c (outsAt1 V c t.val t.isLt) from rfl, PhiS1_castSucc V c t]
  rw [leaves1_0, leaves1_1, leaves1_2, leaves1_3, leaves1_4]
  by_cases h0 : t.val % 4 = 0
  · have hc0 := (hcond1_0 t).mpr h0
    have hc1 : ¬cond1_1 (grid1.coords t) := fun h => by have := (hcond1_1 t).mp h; omega
    rw [Dat.leavesExact_idle (dat1 V c) 5 t (idleAt1_5_A t hc0 hc1) (noFlush1_5_A t hc0 hc1), outsAt1_A V c t h0]
    unfold PhiAt upd1; dsimp only
    obtain ⟨p0, p1, p2, p3⟩ := piecesA c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) hc0 hc1 _ rfl
    refine (sep_mono_left (PhiS1_forget V c _ _)).trans ?_
    rw [PhiA1_eq]
    iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    isplitl [HR HS0 HS1 HS2 HS3 Hg]
    · isplitr [Hg]
      · isplitl [HR]; · iexact HR
        isplitl [HS0]
        · unfold owns; iexists _; isplitr
          swap; · iexact HS0
          ipureintro; exact p0 _ _
        isplitl [HS1]
        · unfold owns; iexists _; isplitr
          swap; · iexact HS1
          ipureintro; exact p1 _ _
        isplitl [HS2]
        · unfold owns; iexists _; isplitr
          swap; · iexact HS2
          ipureintro; exact p2 _ _
        unfold owns; iexists _; isplitr
        swap; · iexact HS3
        ipureintro; exact p3 _ _
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    rw [outsAt1_BC V c t h0, PhiS1_pos V c _ _ (fun h => h0 (by omega))]
    unfold PhiAt upd1; dsimp only
    by_cases h1 : t.val % 4 = 3
    · have hc1 := (hcond1_1 t).mpr h1
      rw [show (dat1 V c).leavesExact 5 t = owns (c : Thread nD τ) (ms1_5 t) fullShare ((dat1 V c).after 5 t) from by
        unfold Dat.leavesExact; rw [liveAt1_5_C t hc0 hc1], after1_5, outsAt1_BC V c t h0]
      unfold upd1; dsimp only
      obtain ⟨p0, p1, p2, p5⟩ := piecesC c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (prev1 V c t).2.1 (prev1 V c t).2.2.1 (prev1 V c t).2.2.2.1 (prev1 V c t).2.2.2.2 hc0 hc1 _ rfl
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, HS3⟩
      isplitl [HR HS0 HS1 HS2 HS3 Hg]
      · isplitr [Hg]
        · isplitl [HR]; · iexact HR
          isplitl [HS0]
          · unfold owns; iexists _; isplitr
            swap; · iexact HS0
            ipureintro; exact p0 _ _
          isplitl [HS1]
          · unfold owns; iexists _; isplitr
            swap; · iexact HS1
            ipureintro; exact p1 _ _
          isplitl [HS2]
          · unfold owns; iexists _; isplitr
            swap; · iexact HS2
            ipureintro; exact p2 _ _
          iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact p5 _ _
    · have hc1 : ¬cond1_1 (grid1.coords t) := fun h => h1 ((hcond1_1 t).mp h)
      rw [Dat.leavesExact_idle (dat1 V c) 5 t (idleAt1_5_B t hc0 hc1) (noFlush1_5_B t hc0 hc1)]
      obtain ⟨p0, p1, p2⟩ := piecesB c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (prev1 V c t).2.1 (prev1 V c t).2.2.1 (prev1 V c t).2.2.2.1 (prev1 V c t).2.2.2.2 hc0 hc1 _ rfl
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, HS3⟩
      isplitl [HR HS0 HS1 HS2 HS3 Hg]
      · isplitr [Hg]
        · isplitl [HR]; · iexact HR
          isplitl [HS0]
          · unfold owns; iexists _; isplitr
            swap; · iexact HS0
            ipureintro; exact p0 _ _
          isplitl [HS1]
          · unfold owns; iexists _; isplitr
            swap; · iexact HS1
            ipureintro; exact p1 _ _
          isplitl [HS2]
          · unfold owns; iexists _; isplitr
            swap; · iexact HS2
            ipureintro; exact p2 _ _
          iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c :=
  PhiS1_forget V c _ _

theorem hout1 (c : Dev nD) : (dat1 V c).Φ (Fin.last cfg1.N) ⊢ Pipeline.ΦA spec1 c :=
  Phi_out1 V c _ (by rw [Fin.val_last]; have : cfg1.N = 32 := N_1; omega)

end

end Cert.KernelIdeal.H

end
-- ==== Proof.KI.Run.lean ====
import proofs.«424806_j56435870269801_3_alg».proof.Proof.Gen.KernelIdeal.Launch
import proofs.«424806_j56435870269801_3_alg».proof.Proof.Gen.KernelIdeal.Skeleton
import proofs.«424806_j56435870269801_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424806_j56435870269801_3_alg».proof.Proof.Gen.KernelIdeal.Regions
import proofs.«424806_j56435870269801_3_alg».proof.Proof.KI.R0
import proofs.«424806_j56435870269801_3_alg».proof.Proof.KI.R1Dat

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Function.update (W3 m c) (Proc.devRef .tc main_v13) ((dat1 (V3 m) c).arrAt 5 cfg1.N)
abbrev V4 : (c : Dev nD) → (b : Ref sig .tc) → Buf (Elt F) ((c : Thread nD τ).loc b) := fun c b => W4 m c b
theorem W4_out (c : Dev nD) : W4 m c (Proc.devRef .tc main_v13) = (dat1 (V3 m) c).arrAt 5 cfg1.N := by
  unfold W4; exact Function.update_self ..
theorem W4_of_ne (c : Dev nD) (b : Ref sig .tc) (hb : b ≠ main_v13) :
    W4 m c (Proc.devRef .tc b) = W3 m c (Proc.devRef .tc b) := by
  unfold W4; exact Function.update_of_ne (StableHlo.devRef_ne_of_ne hb) ..

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

theorem W4_kept (c : Dev nD) (r : Ref sig .tc) (h13 : r ≠ main_v13) (h1 : r ∉ hostOps1_W) (h0 : ∀ w, Pipeline.arrRef spec0 w ≠ r)
    (h : r ∉ hostOps0_W) : W4 m c r = m ((c : Thread nD τ).loc r) :=
  (W4_of_ne m c r h13).trans <| (W3_of m c r h1).trans <| (W2_of_ne m c r h0).trans <| (W1_of m c r h).trans rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section Arrays1
variable {m}
variable (c : Dev nD)

local macro "ℓ[" b:term "]" : term => `(((c : Thread nD τ).loc $b))

theorem arrBufs1_eq (G : (b : Ref sig .tc) → Buf (Elt F) ((c : Thread nD τ).loc b)) :
    (Pipeline.arrBufs (Ix := Unit) (Name := ℕ) (U := UR sig nD τ) (Lvl := ℕ) spec1 c G : sProp 𝕄)
      = iprop((ℓ[main_arg0] ↦{fullShare} G main_arg0) ∗ (ℓ[main_v6] ↦{fullShare} G main_v6) ∗ (ℓ[main_v4] ↦{fullShare} G main_v4)
          ∗ (ℓ[main_v12] ↦{fullShare} G main_v12) ∗ (ℓ[main_v13] ↦{fullShare} G main_v13)) := by
  unfold Pipeline.arrBufs
  exact Idealize.SL.BI.bigSep_eq_bigSepL_of_eq [main_arg0, main_v6, main_v4, main_v12, main_v13] (S := Finset.univ.image (Pipeline.arrRef spec1)) (by decide) (by decide) _

theorem arrays1_eq (V : (c : Dev nD) → (b : Ref sig .tc) → Buf (Elt F) ((c : Thread nD τ).loc b))
    (Fw : (w : Fin cfg1.W) → Buf (Elt F) ((cfg1.win w).arr.view.loc (c : Thread nD τ))) :
    ((dat1 V c).arrays Fw : sProp 𝕄)
      = iprop((ℓ[main_arg0] ↦{fullShare} Fw 0) ∗ (ℓ[main_v6] ↦{fullShare} Fw 1) ∗ (ℓ[main_v4] ↦{fullShare} Fw 2)
          ∗ (ℓ[main_v12] ↦{fullShare.left} Fw 3) ∗ (ℓ[main_v12] ↦{fullShare.right} Fw 4) ∗ (ℓ[main_v13] ↦{fullShare} Fw 5)) := by
  unfold Dat.arrays
  rw [bigSep_W1]
  rw [(arr_whole1 0).set_eq_univ, (arr_whole1 1).set_eq_univ, (arr_whole1 2).set_eq_univ, (arr_whole1 3).set_eq_univ,
    (arr_whole1 5).set_eq_univ]
  rfl

theorem arrays1_of_bufs (V : (c : Dev nD) → (b : Ref sig .tc) → Buf (Elt F) ((c : Thread nD τ).loc b))
    (G : (b : Ref sig .tc) → Buf (Elt F) ((c : Thread nD τ).loc b))
    (Fw : (w : Fin cfg1.W) → Buf (Elt F) ((cfg1.win w).arr.view.loc (c : Thread nD τ)))
    (h0 : Fw 0 = G main_arg0) (h1 : Fw 1 = G main_v6) (h2 : Fw 2 = G main_v4) (h3 : Fw 3 = G main_v12) (h4 : Fw 4 = G main_v12) (h5 : Fw 5 = G main_v13) :
    (Pipeline.arrBufs (Ix := Unit) (Name := ℕ) (U := UR sig nD τ) (Lvl := ℕ) spec1 c G : sProp 𝕄) ⊢ (dat1 V c).arrays Fw := by
  rw [arrBufs1_eq, arrays1_eq, h0, h1, h2, h3, h4, h5]
  iintro ⟨H0, H1, H2, H3, H5⟩
  ihave H3' := (pointsTo_share (PosShare.mem_left_op_right fullShare)).1 $$ H3
  icases H3' with ⟨H3l, H3r⟩
  isplitl [H0]; · iexact H0
  isplitl [H1]; · iexact H1
  isplitl [H2]; · iexact H2
  isplitl [H3l]; · iexact H3l
  isplitl [H3r]; · iexact H3r
  iexact H5

theorem bufs_of_arrays1 (V : (c : Dev nD) → (b : Ref sig .tc) → Buf (Elt F) ((c : Thread nD τ).loc b))
    (G : (b : Ref sig .tc) → Buf (Elt F) ((c : Thread nD τ).loc b))
    (Fw : (w : Fin cfg1.W) → Buf (Elt F) ((cfg1.win w).arr.view.loc (c : Thread nD τ)))
    (h0 : Fw 0 = G main_arg0) (h1 : Fw 1 = G main_v6) (h2 : Fw 2 = G main_v4) (h3 : Fw 3 = G main_v12) (h4 : Fw 4 = G main_v12) (h5 : Fw 5 = G main_v13) :
    ((dat1 V c).arrays Fw : sProp 𝕄) ⊢ Pipeline.arrBufs (Ix := Unit) (Name := ℕ) (U := UR sig nD τ) (Lvl := ℕ) spec1 c G := by
  rw [arrBufs1_eq, arrays1_eq, h0, h1, h2, h3, h4, h5]
  iintro ⟨H0, H1, H2, H3l, H3r, H5⟩
  isplitl [H0]; · iexact H0
  isplitl [H1]; · iexact H1
  isplitl [H2]; · iexact H2
  isplitl [H3l H3r]
  · iapply (pointsTo_share (PosShare.mem_left_op_right fullShare)).2
    isplitl [H3l]; · iexact H3l
    iexact H3r
  iexact H5

end Arrays1

set_option backward.isDefEq.respectTransparency.types false in

def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0) ∗ Pipeline.unscopedRest spec1 c (V3 m c)) := by
      rw [Pipeline.unscopedBufs_split₀ cfgs 1 winFacts₀1.arr_unscoped c (V3 m c)]
      exact sep_mono (arrays1_of_bufs c (V3 m) (V3 m c) _ rfl rfl rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V3 m c))
        ⊢ (unscopedBufs (Ix := Unit) (Name := ℕ) (U := UR sig nD τ) (Lvl := ℕ) c (V4 m c) : sProp 𝕄) := by
      rw [Pipeline.unscopedBufs_split₀ cfgs 1 winFacts₀1.arr_unscoped c (V4 m c)]
      refine sep_mono (bufs_of_arrays1 c (V3 m) (V4 m c) _ ?_ ?_ ?_ ?_ ?_ ?_) (Entails.of_eq ?_)
      · exact (((dat1 (V3 m) c).arrAt_in 0 rfl _).trans (A_eq1 (V3 m) c 0)).trans (W4_of_ne m c main_arg0 (by decide)).symm
      · exact (((dat1 (V3 m) c).arrAt_in 1 rfl _).trans (A_eq1 (V3 m) c 1)).trans (W4_of_ne m c main_v6 (by decide)).symm
      · exact (((dat1 (V3 m) c).arrAt_in 2 rfl _).trans (A_eq1 (V3 m) c 2)).trans (W4_of_ne m c main_v4 (by decide)).symm
      · exact (((dat1 (V3 m) c).arrAt_in 3 rfl _).trans (A_eq1 (V3 m) c 3)).trans (W4_of_ne m c main_v12 (by decide)).symm
      · exact (((dat1 (V3 m) c).arrAt_in 4 rfl _).trans (A_eq1 (V3 m) c 4)).trans (W4_of_ne m c main_v12 (by decide)).symm
      · exact (W4_out m c).symm
      · unfold Pipeline.unscopedRest
        exact bigSep_congr fun b hb => by
          rw [show V4 m c b = V3 m c b from W4_of_ne m c b fun e => (Finset.mem_sdiff.mp hb).2 (Finset.mem_image.mpr ⟨5, Finset.mem_univ _, e.symm⟩)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

theorem result_eq (c : Dev nD) : W4 m c (Proc.devRef .tc main_v13) = (dat1 (V3 m) c).arrAt 5 cfg1.N := W4_out m c

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    refine ⟨?_, ?_, ?_, ?_, ?_, ?_, ?_⟩ <;>
      exact (h c _ (mem_uc _ (by decide))).trans (W4_kept m c _ (by decide) (by decide) (by decide) (by decide)))
    (run_all m ρ)

end Cert.KernelIdeal.H

end
-- ==== Proof.LibMatmulPlain.lean ====
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

theorem contr_rank (hlc : d.lhsContracting = [1]) : d.contr.rank = 1 := by
  rw [d.rank_contr, hlc]; rfl

theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- A plain matrix product into a zero accumulator, read at an index over the extended reals: entry (p, q) is the sum over k of lhs (p, k) * rhs (k, q). -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.KI.R0Value.lean ====
import proofs.«424806_j56435870269801_3_alg».proof.Proof.KI.R0
import proofs.«424806_j56435870269801_3_alg».proof.Proof.Spec
import proofs.«424806_j56435870269801_3_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HV

open Cert.KernelIdeal Cert.KernelIdeal.Gen Cert.KernelIdeal.H
open Idealize.ShloMosaic Idealize.ShloMosaic.TcCoe Idealize.ShloMosaic.ValueIdx Idealize.SL.Sem
open Idealize.ShloMosaic.Pipeline (Dat)
open scoped BigOperators

theorem kv_coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

theorem kv_up2_at {a b : Nat} (f : Fin a → Fin b → ℝ) (i : (⟨2, ![a, b]⟩ : Shape).Idx) (u : Fin a) (v : Fin b)
    (hu : (i 0).val = u.val) (hv : (i 1).val = v.val) : Cert.Attn.up2 f i = ((f u v : ℝ) : EReal) := by
  have e0 : i 0 = u := Fin.ext hu
  have e1 : i 1 = v := Fin.ext hv
  unfold Cert.Attn.up2; rw [e0, e1]

theorem kv_up1_at {a : Nat} (f : Fin a → ℝ) (i : (⟨1, ![a]⟩ : Shape).Idx) (u : Fin a)
    (hu : (i 0).val = u.val) : Cert.Attn.up1 f i = ((f u : ℝ) : EReal) := by
  have e0 : i 0 = u := Fin.ext hu
  unfold Cert.Attn.up1; rw [e0]

theorem kv_pay_apply (x0 : FVec Ideal S512x1024 .f32) (x1 : FVec Ideal S1024x2048 .bf16) (x2 : FVec Ideal S2048 .f32)
    (p : Fin 512) (q : Fin 2048) :
    k0_pay1 (F := Ideal) x0 x1 x2 (ix2 p q) = (∑ k : Fin 1024, x0 (ix2 p k) * x1 (ix2 k q)) + x2 (ix1 q) := by
  have e0 : (truncf .bf16 (shapeCast S512x1024 x0 shapeCasts_S512x1024_S512x1024) bitsLt_bf16_f32 : FVec Ideal S512x1024 .bf16) = x0 :=
    shapeCast_self x0 _
  have e1 : shapeCast S1024x2048 x1 shapeCasts_S1024x2048_S1024x2048 = x1 := shapeCast_self x1 _
  have e2 : shapeCast S2048 x2 shapeCasts_S2048_S2048 = x2 := shapeCast_self x2 _
  have hm := Cert.Lib.MatmulPlain.matmul_zero_apply (φ₁ := .bf16) (φ₂ := .bf16) dot_S512x1024_S1024x2048_S512x2048_1_0_0_1_n_n rfl rfl rfl rfl rfl rfl none x0 x1 p q
  have hb : broadcastTo S512x2048 (shapeCast S1x2048 x2 shapeCasts_S2048_S1x2048) broadcasts_S1x2048_S512x2048 (ix2 p q) = x2 (ix1 q) :=
    (broadcastTo_1b_ab_apply _ _ p q).trans (shapeCast_a_1a_apply x2 _ 0 q)
  show FloatOps.matmul dot_S512x1024_S1024x2048_S512x2048_1_0_0_1_n_n none
        (truncf .bf16 (shapeCast S512x1024 x0 shapeCasts_S512x1024_S512x1024) bitsLt_bf16_f32 : FVec Ideal S512x1024 .bf16)
        (shapeCast S1024x2048 x1 shapeCasts_S1024x2048_S1024x2048) (constant S512x2048 .f32 0x00000000#32) (ix2 p q)
      + broadcastTo S512x2048 (shapeCast S1x2048 (shapeCast S2048 x2 shapeCasts_S2048_S2048) shapeCasts_S2048_S1x2048) broadcasts_S1x2048_S512x2048 (ix2 p q) = _
  rw [e0, e1, e2, hm, hb]

theorem kv_pay_real (x2 : Fin 8192 → Fin 1024 → ℝ) (Wkv : Fin 1024 → Fin 2048 → ℝ) (bkv : Fin 2048 → ℝ)
    (X0 : FVec Ideal S512x1024 .f32) (X1 : FVec Ideal S1024x2048 .bf16) (X2 : FVec Ideal S2048 .f32)
    (r : Fin 8192) (p : Fin 512) (q : Fin 2048)
    (hX0 : ∀ k : Fin 1024, X0 (ix2 p k) = ((x2 r k : ℝ) : EReal))
    (hX1 : ∀ k : Fin 1024, X1 (ix2 k q) = ((Wkv k q : ℝ) : EReal))
    (hX2 : X2 (ix1 q) = ((bkv q : ℝ) : EReal)) :
    k0_pay1 (F := Ideal) X0 X1 X2 (ix2 p q) = ((Cert.Attn.kvproj x2 Wkv bkv r q : ℝ) : EReal) := by
  rw [kv_pay_apply, hX2]
  unfold Cert.Attn.kvproj
  rw [EReal.coe_add, kv_coe_sum]
  refine congrArg (· + ((bkv q : ℝ) : EReal)) (Finset.sum_congr rfl fun k _ => ?_)
  rw [hX0, hX1, EReal.coe_mul]

theorem kv_hz2 : (![0, 0] : Fin 2 → Nat) = fun _ => 0 := funext fun a => by fin_cases a <;> rfl
theorem kv_hz1 : (![0] : Fin 1 → Nat) = fun _ => 0 := funext fun a => by fin_cases a; rfl

theorem kv_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

theorem kv_flushed_eq (c : Dev nD) (x2 : Fin 8192 → Fin 1024 → ℝ) (Wkv : Fin 1024 → Fin 2048 → ℝ) (bkv : Fin 2048 → ℝ)
    (h0 : V c main_v0 = Cert.Attn.up2 x2) (h9 : V c main_v9 = Cert.Attn.up2 Wkv) (h10 : V c main_v10 = Cert.Attn.up1 bkv)
    (t : Fin cfg0.N) :
    (dat0 (F := Ideal) V c).flushed 3 t
      = ((cfg0.win 3).blk t).view.read (Elt Ideal) (Cert.Attn.up2 (Cert.Attn.kvproj x2 Wkv bkv)) := by
  show (cfg0.win 3).cut (grid0.coords t) ((dat0 (F := Ideal) V c).after 3 t) = _
  rw [after0_3]
  unfold out0_3
  rw [View.canon_unit_zero kv_hz2]
  simp only [View.ld_unit_zero (S := S512x1024) kv_hz2, View.ld_unit_zero (S := S1024x2048) kv_hz2, View.ld_unit_zero (S := S2048) kv_hz1]
  obtain ⟨e0, e1, e2, e3, e4, e5, e6⟩ := kv_idx_facts t
  have ht : t.val < 16 := lt_of_lt_of_eq t.isLt N_0
  funext j
  obtain ⟨p, q, rfl⟩ : ∃ (p : Fin 512) (q : Fin 2048), j = ix2 p q := ⟨j 0, j 1, eq_ix2 j⟩
  have hp : p.val < 512 := p.isLt
  refine (kv_pay_real x2 Wkv bkv (iblk0 V c 0 t) (iblk0 V c 1 t) (iblk0 V c 2 t) ⟨t.val * 512 + p.val, by omega⟩ p q ?_ ?_ ?_).trans ?_
  · intro k
    show V c main_v0 (((cfg0.win 0).blk t).view.emb (ix2 p k)) = _
    refine (congrFun h0 _).trans (kv_up2_at x2 _ _ k ?_ ?_)
    · show win0_0.index t (0 : Fin 2) * 512 + 1 * p.val = t.val * 512 + p.val
      rw [e0]; omega
    · show win0_0.index t (1 : Fin 2) * 1024 + 1 * k.val = k.val
      rw [e1]; omega
  · intro k
    show V c main_v9 (((cfg0.win 1).blk t).view.emb (ix2 k q)) = _
    refine (congrFun h9 _).trans (kv_up2_at Wkv _ k q ?_ ?_)
    · show win0_1.index t (0 : Fin 2) * 1024 + 1 * k.val = k.val
      rw [e2]; omega
    · show win0_1.index t (1 : Fin 2) * 2048 + 1 * q.val = q.val
      rw [e3]; omega
  · show V c main_v10 (((cfg0.win 2).blk t).view.emb (ix1 q)) = _
    refine (congrFun h10 _).trans (kv_up1_at bkv _ q ?_)
    show win0_2.index t (0 : Fin 1) * 2048 + 1 * q.val = q.val
    rw [e4]; omega
  · symm
    show Cert.Attn.up2 (Cert.Attn.kvproj x2 Wkv bkv) (((cfg0.win 3).blk t).view.emb (ix2 p q)) = _
    refine kv_up2_at _ _ _ q ?_ ?_
    · show win0_3.index t (0 : Fin 2) * 512 + 1 * p.val = t.val * 512 + p.val
      rw [e5]; omega
    · show win0_3.index t (1 : Fin 2) * 2048 + 1 * q.val = q.val
      rw [e6]; omega

theorem kv_mem_blk (t : Fin cfg0.N) (i : S8192x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v11).slice (win0_3.rect t)).set ↔ _
  rw [View.set_slice_whole, Rect.mem_set_unit]
  exact Iff.rfl

theorem kv_cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : (i 0).val / 512 < cfg0.N := lt_of_lt_of_eq (by omega : (i 0).val / 512 < 16) N_0.symm
  refine ⟨⟨(i 0).val / 512, hN⟩, flush0_3 _, ?_⟩
  rw [kv_mem_blk]
  obtain ⟨-, -, -, -, -, e5, e6⟩ := kv_idx_facts ⟨(i 0).val / 512, hN⟩
  have e5' : win0_3.index ⟨(i 0).val / 512, hN⟩ (0 : Fin 2) = (i 0).val / 512 := e5
  intro a
  match a with
  | ⟨0, _⟩ =>
    show win0_3.index ⟨(i 0).val / 512, hN⟩ (0 : Fin 2) * 512 ≤ (i 0).val ∧ (i 0).val < win0_3.index ⟨(i 0).val / 512, hN⟩ (0 : Fin 2) * 512 + 512
    rw [e5']; omega
  | ⟨1, _⟩ =>
    show win0_3.index ⟨(i 0).val / 512, hN⟩ (1 : Fin 2) * 2048 ≤ (i 1).val ∧ (i 1).val < win0_3.index ⟨(i 0).val / 512, hN⟩ (1 : Fin 2) * 2048 + 2048
    rw [e6]; omega

theorem kv_final (c : Dev nD) (x2 : Fin 8192 → Fin 1024 → ℝ) (Wkv : Fin 1024 → Fin 2048 → ℝ) (bkv : Fin 2048 → ℝ)
    (h0 : V c main_v0 = Cert.Attn.up2 x2) (h9 : V c main_v9 = Cert.Attn.up2 Wkv) (h10 : V c main_v10 = Cert.Attn.up1 bkv) :
    (dat0 (F := Ideal) V c).arrAt 3 cfg0.N = Cert.Attn.up2 (Cert.Attn.kvproj x2 Wkv bkv) :=
  (dat0 (F := Ideal) V c).arrAt_eq_of_cover 3 (Cert.Attn.up2 (Cert.Attn.kvproj x2 Wkv bkv))
    (fun t _ => kv_flushed_eq V c x2 Wkv bkv h0 h9 h10 t) kv_cover

end

end Cert.KernelIdeal.HV

end
-- ==== Proof.KI.R1Pay.lean ====
import proofs.«424806_j56435870269801_3_alg».proof.Proof.Gen.KernelIdeal.Skeleton
import proofs.«424806_j56435870269801_3_alg».proof.Proof.LibMatmulPlain
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HV

open Idealize.ShloMosaic Idealize.ShloMosaic.ValueIdx Cert.KernelIdeal Cert.KernelIdeal.Gen

theorem bcast_col_1024 (x : S1x1024x1.Idx → EReal) (p d : Fin 1024) :
    broadcastTo S1x1024x1024 x broadcasts_S1x1024x1_S1x1024x1024 (ix3 (0 : Fin 1) p d) = x (ix3 (0 : Fin 1) p (0 : Fin 1)) :=
  broadcastTo_apply x _ _ _ (fun a => by match a with | ⟨0, _⟩ => rfl | ⟨1, _⟩ => rfl | ⟨2, _⟩ => rfl)

theorem bcast_col_512 (x : S1x1024x1.Idx → EReal) (p : Fin 1024) (j : Fin 512) :
    broadcastTo S1x1024x512 x broadcasts_S1x1024x1_S1x1024x512 (ix3 (0 : Fin 1) p j) = x (ix3 (0 : Fin 1) p (0 : Fin 1)) :=
  broadcastTo_apply x _ _ _ (fun a => by match a with | ⟨0, _⟩ => rfl | ⟨1, _⟩ => rfl | ⟨2, _⟩ => rfl)

theorem pay2_apply (m : FVec Ideal S1x1024x1 .f32) : k1_pay2 (F := Ideal) m = m := by
  unfold k1_pay2; exact shapeCast_self _ _

theorem pay8_apply (v : Vec Ideal S1x512x1024 .bf16) : k1_pay8 (F := Ideal) v = v := by
  unfold k1_pay8; exact shapeCast_self _ _

theorem pay4_apply (p : Fin 1024) : k1_pay4 (F := Ideal) (ix3 (0 : Fin 1) p (0 : Fin 1)) = (⊥ : EReal) := by
  unfold k1_pay4
  rw [shapeCast_self]
  show Ideal.ofBits .f32 0xFF800000#32 = ⊥
  simp [Ideal.ofBits, Ideal.ieee]

theorem pay5_apply (p : Fin 1024) : k1_pay5 (F := Ideal) (ix3 (0 : Fin 1) p (0 : Fin 1)) = (0 : EReal) := by
  unfold k1_pay5
  rw [shapeCast_self]
  show Ideal.ofBits .f32 0x00000000#32 = 0
  exact Ideal.ofBits_zero_f32

theorem pay6_apply (p d : Fin 1024) : k1_pay6 (F := Ideal) (ix3 (0 : Fin 1) p d) = (0 : EReal) := by
  unfold k1_pay6
  rw [shapeCast_self]
  show Ideal.ofBits .f32 0x00000000#32 = 0
  exact Ideal.ofBits_zero_f32

theorem pay3_apply (acc : Vec Ideal S1x1024x1024 .f32) (l : Vec Ideal S1x1024x1 .f32) (p d : Fin 1024) :
    k1_pay3 (F := Ideal) acc l (ix3 (0 : Fin 1) p d) = Ideal.div (acc (ix3 (0 : Fin 1) p d)) (l (ix3 (0 : Fin 1) p (0 : Fin 1))) := by
  unfold k1_pay3
  rw [divf_apply]
  exact congrArg (Ideal.div _) (bcast_col_1024 l p d)

theorem cast_row_col (x : S1x1024.Idx → EReal) (p : Fin 1024) :
    shapeCast S1x1024x1 x shapeCasts_S1x1024_S1x1024x1 (ix3 (0 : Fin 1) p (0 : Fin 1)) = x (ix2 (0 : Fin 1) p) :=
  shapeCast_apply x _ _ _ (by
    rw [Shape.rowMajor_val_two, Shape.rowMajor_val_three]
    show 0 * 1024 + p.val = (0 * 1024 + p.val) * 1 + 0
    omega)

theorem lhs9_0 (i : S1x1024x512.Idx) (c : dot_S1x1024x1024_S1x512x1024_S1x1024x512_2_2_1_1_0_0.contr.Idx) :
    (dot_S1x1024x1024_S1x512x1024_S1x1024x512_2_2_1_1_0_0.lhsIdx i c 0).val = (i 0).val := by
  unfold DotDims.lhsIdx
  rw [dif_pos (show (0 : Fin S1x1024x1024.rank) ∈ dot_S1x1024x1024_S1x512x1024_S1x1024x512_2_2_1_1_0_0.lhsBatch by decide)]
  rfl
theorem lhs9_1 (i : S1x1024x512.Idx) (c : dot_S1x1024x1024_S1x512x1024_S1x1024x512_2_2_1_1_0_0.contr.Idx) :
    (dot_S1x1024x1024_S1x512x1024_S1x1024x512_2_2_1_1_0_0.lhsIdx i c 1).val = (i 1).val := by
  unfold DotDims.lhsIdx
  rw [dif_neg (show ¬(1 : Fin S1x1024x1024.rank) ∈ dot_S1x1024x1024_S1x512x1024_S1x1024x512_2_2_1_1_0_0.lhsBatch by decide), dif_pos (show (1 : Fin S1x1024x1024.rank) ∈ dot_S1x1024x1024_S1x512x1024_S1x1024x512_2_2_1_1_0_0.lhsNonContracting by decide)]
  rfl
theorem lhs9_2 (i : S1x1024x512.Idx) (c : dot_S1x1024x1024_S1x512x1024_S1x1024x512_2_2_1_1_0_0.contr.Idx) :
    (dot_S1x1024x1024_S1x512x1024_S1x1024x512_2_2_1_1_0_0.lhsIdx i c 2).val = (c ⟨0, by decide⟩).val :=
  dot_S1x1024x1024_S1x512x1024_S1x1024x512_2_2_1_1_0_0.lhsIdx_val_of_single rfl i c
theorem rhs9_0 (i : S1x1024x512.Idx) (c : dot_S1x1024x1024_S1x512x1024_S1x1024x512_2_2_1_1_0_0.contr.Idx) :
    (dot_S1x1024x1024_S1x512x1024_S1x1024x512_2_2_1_1_0_0.rhsIdx i c 0).val = (i 0).val := by
  unfold DotDims.rhsIdx
  rw [dif_pos (show (0 : Fin S1x512x1024.rank) ∈ dot_S1x1024x1024_S1x512x1024_S1x1024x512_2_2_1_1_0_0.rhsBatch by decide)]
  rfl
theorem rhs9_1 (i : S1x1024x512.Idx) (c : dot_S1x1024x1024_S1x512x1024_S1x1024x512_2_2_1_1_0_0.contr.Idx) :
    (dot_S1x1024x1024_S1x512x1024_S1x1024x512_2_2_1_1_0_0.rhsIdx i c 1).val = (i 2).val := by
  unfold DotDims.rhsIdx
  rw [dif_neg (show ¬(1 : Fin S1x512x1024.rank) ∈ dot_S1x1024x1024_S1x512x1024_S1x1024x512_2_2_1_1_0_0.rhsBatch by decide), dif_pos (show (1 : Fin S1x512x1024.rank) ∈ dot_S1x1024x1024_S1x512x1024_S1x1024x512_2_2_1_1_0_0.rhsNonContracting by decide)]
  rfl
theorem rhs9_2 (i : S1x1024x512.Idx) (c : dot_S1x1024x1024_S1x512x1024_S1x1024x512_2_2_1_1_0_0.contr.Idx) :
    (dot_S1x1024x1024_S1x512x1024_S1x1024x512_2_2_1_1_0_0.rhsIdx i c 2).val = (c ⟨0, by decide⟩).val :=
  dot_S1x1024x1024_S1x512x1024_S1x1024x512_2_2_1_1_0_0.rhsIdx_val_of_single rfl i c

theorem pay9_apply (q : FVec Ideal S1x1024x1024 .bf16) (k : FVec Ideal S1x512x1024 .bf16) (p : Fin 1024) (j : Fin 512) :
    k1_pay9 (F := Ideal) q k (ix3 (0 : Fin 1) p j) = ∑ f : Fin 1024, q (ix3 (0 : Fin 1) p f) * k (ix3 (0 : Fin 1) j f) := by
  unfold k1_pay9
  rw [shapeCast_self]
  refine (Ideal.matmul_constant_zero_apply dot_S1x1024x1024_S1x512x1024_S1x1024x512_2_2_1_1_0_0 none q k (ix3 (0 : Fin 1) p j)).trans ?_
  rw [← Equiv.sum_comp (contrEquiv1 dot_S1x1024x1024_S1x512x1024_S1x1024x512_2_2_1_1_0_0 1024 rfl rfl).symm]
  refine Finset.sum_congr rfl fun f _ => ?_
  have hk := contrEquiv1_symm_val dot_S1x1024x1024_S1x512x1024_S1x1024x512_2_2_1_1_0_0 1024 rfl rfl f
  have el : dot_S1x1024x1024_S1x512x1024_S1x1024x512_2_2_1_1_0_0.lhsIdx (ix3 (0 : Fin 1) p j) ((contrEquiv1 dot_S1x1024x1024_S1x512x1024_S1x1024x512_2_2_1_1_0_0 1024 rfl rfl).symm f) = ix3 (0 : Fin 1) p f := funext fun a => Fin.ext (by
    match a with
    | ⟨0, _⟩ => exact lhs9_0 _ _
    | ⟨1, _⟩ => exact lhs9_1 _ _
    | ⟨2, _⟩ => exact (lhs9_2 _ _).trans hk)
  have er : dot_S1x1024x1024_S1x512x1024_S1x1024x512_2_2_1_1_0_0.rhsIdx (ix3 (0 : Fin 1) p j) ((contrEquiv1 dot_S1x1024x1024_S1x512x1024_S1x1024x512_2_2_1_1_0_0 1024 rfl rfl).symm f) = ix3 (0 : Fin 1) j f := funext fun a => Fin.ext (by
    match a with
    | ⟨0, _⟩ => exact rhs9_0 _ _
    | ⟨1, _⟩ => exact rhs9_1 _ _
    | ⟨2, _⟩ => exact (rhs9_2 _ _).trans hk)
  rw [el, er]

theorem lhs1_0 (i : S1x1024x1024.Idx) (c : dot_S1x1024x512_S1x512x1024_S1x1024x1024_2_1_1_2_0_0.contr.Idx) :
    (dot_S1x1024x512_S1x512x1024_S1x1024x1024_2_1_1_2_0_0.lhsIdx i c 0).val = (i 0).val := by
  unfold DotDims.lhsIdx
  rw [dif_pos (show (0 : Fin S1x1024x512.rank) ∈ dot_S1x1024x512_S1x512x1024_S1x1024x1024_2_1_1_2_0_0.lhsBatch by decide)]
  rfl
theorem lhs1_1 (i : S1x1024x1024.Idx) (c : dot_S1x1024x512_S1x512x1024_S1x1024x1024_2_1_1_2_0_0.contr.Idx) :
    (dot_S1x1024x512_S1x512x1024_S1x1024x1024_2_1_1_2_0_0.lhsIdx i c 1).val = (i 1).val := by
  unfold DotDims.lhsIdx
  rw [dif_neg (show ¬(1 : Fin S1x1024x512.rank) ∈ dot_S1x1024x512_S1x512x1024_S1x1024x1024_2_1_1_2_0_0.lhsBatch by decide), dif_pos (show (1 : Fin S1x1024x512.rank) ∈ dot_S1x1024x512_S1x512x1024_S1x1024x1024_2_1_1_2_0_0.lhsNonContracting by decide)]
  rfl
theorem lhs1_2 (i : S1x1024x1024.Idx) (c : dot_S1x1024x512_S1x512x1024_S1x1024x1024_2_1_1_2_0_0.contr.Idx) :
    (dot_S1x1024x512_S1x512x1024_S1x1024x1024_2_1_1_2_0_0.lhsIdx i c 2).val = (c ⟨0, by decide⟩).val :=
  dot_S1x1024x512_S1x512x1024_S1x1024x1024_2_1_1_2_0_0.lhsIdx_val_of_single rfl i c
theorem rhs1_0 (i : S1x1024x1024.Idx) (c : dot_S1x1024x512_S1x512x1024_S1x1024x1024_2_1_1_2_0_0.contr.Idx) :
    (dot_S1x1024x512_S1x512x1024_S1x1024x1024_2_1_1_2_0_0.rhsIdx i c 0).val = (i 0).val := by
  unfold DotDims.rhsIdx
  rw [dif_pos (show (0 : Fin S1x512x1024.rank) ∈ dot_S1x1024x512_S1x512x1024_S1x1024x1024_2_1_1_2_0_0.rhsBatch by decide)]
  rfl
theorem rhs1_1 (i : S1x1024x1024.Idx) (c : dot_S1x1024x512_S1x512x1024_S1x1024x1024_2_1_1_2_0_0.contr.Idx) :
    (dot_S1x1024x512_S1x512x1024_S1x1024x1024_2_1_1_2_0_0.rhsIdx i c 1).val = (c ⟨0, by decide⟩).val :=
  dot_S1x1024x512_S1x512x1024_S1x1024x1024_2_1_1_2_0_0.rhsIdx_val_of_single rfl i c
theorem rhs1_2 (i : S1x1024x1024.Idx) (c : dot_S1x1024x512_S1x512x1024_S1x1024x1024_2_1_1_2_0_0.contr.Idx) :
    (dot_S1x1024x512_S1x512x1024_S1x1024x1024_2_1_1_2_0_0.rhsIdx i c 2).val = (i 2).val := by
  unfold DotDims.rhsIdx
  rw [dif_neg (show ¬(2 : Fin S1x512x1024.rank) ∈ dot_S1x1024x512_S1x512x1024_S1x1024x1024_2_1_1_2_0_0.rhsBatch by decide), dif_pos (show (2 : Fin S1x512x1024.rank) ∈ dot_S1x1024x512_S1x512x1024_S1x1024x1024_2_1_1_2_0_0.rhsNonContracting by decide)]
  rfl

theorem pay1_apply (v : FVec Ideal S1x512x1024 .bf16) (a : FVec Ideal S1x1024x1 .f32) (e : FVec Ideal S1x1024x512 .f32)
    (acc : FVec Ideal S1x1024x1024 .f32) (p d : Fin 1024) :
    k1_pay1 (F := Ideal) v a e acc (ix3 (0 : Fin 1) p d)
      = a (ix3 (0 : Fin 1) p (0 : Fin 1)) * acc (ix3 (0 : Fin 1) p d) + ∑ j : Fin 512, e (ix3 (0 : Fin 1) p j) * v (ix3 (0 : Fin 1) j d) := by
  unfold k1_pay1
  rw [shapeCast_self, addf_apply, mulf_apply, bcast_col_1024]
  refine congrArg (a (ix3 (0 : Fin 1) p (0 : Fin 1)) * acc (ix3 (0 : Fin 1) p d) + ·) ?_
  refine (Ideal.matmul_constant_zero_apply dot_S1x1024x512_S1x512x1024_S1x1024x1024_2_1_1_2_0_0 none (truncf .bf16 e bitsLt_bf16_f32) v (ix3 (0 : Fin 1) p d)).trans ?_
  rw [← Equiv.sum_comp (contrEquiv1 dot_S1x1024x512_S1x512x1024_S1x1024x1024_2_1_1_2_0_0 512 rfl rfl).symm]
  refine Finset.sum_congr rfl fun j _ => ?_
  have hk := contrEquiv1_symm_val dot_S1x1024x512_S1x512x1024_S1x1024x1024_2_1_1_2_0_0 512 rfl rfl j
  have el : dot_S1x1024x512_S1x512x1024_S1x1024x1024_2_1_1_2_0_0.lhsIdx (ix3 (0 : Fin 1) p d) ((contrEquiv1 dot_S1x1024x512_S1x512x1024_S1x1024x1024_2_1_1_2_0_0 512 rfl rfl).symm j) = ix3 (0 : Fin 1) p j := funext fun a => Fin.ext (by
    match a with
    | ⟨0, _⟩ => exact lhs1_0 _ _
    | ⟨1, _⟩ => exact lhs1_1 _ _
    | ⟨2, _⟩ => exact (lhs1_2 _ _).trans hk)
  have er : dot_S1x1024x512_S1x512x1024_S1x1024x1024_2_1_1_2_0_0.rhsIdx (ix3 (0 : Fin 1) p d) ((contrEquiv1 dot_S1x1024x512_S1x512x1024_S1x1024x1024_2_1_1_2_0_0 512 rfl rfl).symm j) = ix3 (0 : Fin 1) j d := funext fun a => Fin.ext (by
    match a with
    | ⟨0, _⟩ => exact rhs1_0 _ _
    | ⟨1, _⟩ => exact (rhs1_1 _ _).trans hk
    | ⟨2, _⟩ => exact rhs1_2 _ _)
  rw [el, er]
  rfl

theorem pay11_apply (q : FVec Ideal S1x1024x1024 .bf16) (k : FVec Ideal S1x512x1024 .bf16) (m m' : FVec Ideal S1x1024x1 .f32) (p : Fin 1024) :
    k1_pay11 (F := Ideal) q k m m' (ix3 (0 : Fin 1) p (0 : Fin 1))
      = Ideal.exp (m' (ix3 (0 : Fin 1) p (0 : Fin 1)) - k1_pay10 (F := Ideal) q k m (ix3 (0 : Fin 1) p (0 : Fin 1))) := by
  unfold k1_pay11
  rfl

theorem pay12_apply (q : FVec Ideal S1x1024x1024 .bf16) (k : FVec Ideal S1x512x1024 .bf16) (m : FVec Ideal S1x1024x1 .f32) (p : Fin 1024) (j : Fin 512) :
    k1_pay12 (F := Ideal) q k m (ix3 (0 : Fin 1) p j)
      = Ideal.exp (k1_pay9 (F := Ideal) q k (ix3 (0 : Fin 1) p j) - k1_pay10 (F := Ideal) q k m (ix3 (0 : Fin 1) p (0 : Fin 1))) := by
  unfold k1_pay12
  exact congrArg (fun z => Ideal.exp (k1_pay9 (F := Ideal) q k (ix3 (0 : Fin 1) p j) - z)) (bcast_col_512 (k1_pay10 (F := Ideal) q k m) p j)

def rowmax (q : FVec Ideal S1x1024x1024 .bf16) (k : FVec Ideal S1x512x1024 .bf16) (p : Fin 1024) : EReal :=
  (Finset.univ : Finset (Fin 512)).fold max (⊥ : EReal) (fun j => k1_pay9 (F := Ideal) q k (ix3 (0 : Fin 1) p j))

/-- A maximum of real scores is real: it is at least one of them and below +∞ like all of them. -/
theorem rowmax_real (q : FVec Ideal S1x1024x1024 .bf16) (k : FVec Ideal S1x512x1024 .bf16) (p : Fin 1024)
    (hr : ∀ j : Fin 512, ∃ r : ℝ, k1_pay9 (F := Ideal) q k (ix3 (0 : Fin 1) p j) = (r : EReal)) :
    ∃ r : ℝ, rowmax q k p = (r : EReal) := by
  obtain ⟨r0, h0⟩ := hr 0
  have hb : rowmax q k p ≠ ⊥ := fun h => by
    have h1 : k1_pay9 (F := Ideal) q k (ix3 (0 : Fin 1) p 0) ≤ rowmax q k p :=
      (Finset.le_fold_max _).mpr (Or.inr ⟨0, Finset.mem_univ _, le_rfl⟩)
    rw [h, h0] at h1
    exact EReal.coe_ne_bot r0 (le_bot_iff.mp h1)
  have ht : rowmax q k p ≠ ⊤ := ne_of_lt ((Finset.fold_max_lt _).mpr ⟨bot_lt_top, fun j _ => by
    obtain ⟨r, h⟩ := hr j; rw [h]; exact EReal.coe_lt_top r⟩)
  exact ⟨_, (EReal.coe_toReal ht hb).symm⟩

theorem pay10_apply (q : FVec Ideal S1x1024x1024 .bf16) (k : FVec Ideal S1x512x1024 .bf16) (m : FVec Ideal S1x1024x1 .f32) (p : Fin 1024) :
    k1_pay10 (F := Ideal) q k m (ix3 (0 : Fin 1) p (0 : Fin 1)) = max (m (ix3 (0 : Fin 1) p (0 : Fin 1))) (rowmax q k p) := by
  unfold k1_pay10
  rw [maximumf_apply, cast_row_col]
  refine congrArg (max (m (ix3 (0 : Fin 1) p (0 : Fin 1)))) ?_
  refine (Ideal.multiReduction_maximumf_single (k1_pay9 (F := Ideal) q k) 0xFF800000#32 reduces_S1x1024x512_S1x1024 (.inl rfl) rfl (ix2 (0 : Fin 1) p)).trans ?_
  have hb : FloatOps.ofBits (F := Ideal) .f32 0xFF800000#32 = (⊥ : EReal) := by
    show Ideal.ofBits .f32 0xFF800000#32 = ⊥
    simp [Ideal.ofBits, Ideal.ieee]
  rw [hb]
  unfold rowmax
  show (Finset.univ : Finset (Fin 512)).fold max (⊥ : EReal) (fun j => k1_pay9 (F := Ideal) q k (reduces_S1x1024x512_S1x1024.lift (ix2 (0 : Fin 1) p) j)) = _
  refine congrArg (fun g => Finset.fold max (⊥ : EReal) g (Finset.univ : Finset (Fin 512))) (funext fun j => ?_)
  exact congrArg (k1_pay9 (F := Ideal) q k) (funext fun a => Fin.ext (by match a with | ⟨0, _⟩ => rfl | ⟨1, _⟩ => rfl | ⟨2, _⟩ => rfl))

theorem pay13_apply (q : FVec Ideal S1x1024x1024 .bf16) (k : FVec Ideal S1x512x1024 .bf16) (m m' l : FVec Ideal S1x1024x1 .f32) (p : Fin 1024) :
    k1_pay13 (F := Ideal) q k m m' l (ix3 (0 : Fin 1) p (0 : Fin 1))
      = k1_pay11 (F := Ideal) q k m m' (ix3 (0 : Fin 1) p (0 : Fin 1)) * l (ix3 (0 : Fin 1) p (0 : Fin 1))
        + ∑ j : Fin 512, k1_pay12 (F := Ideal) q k m (ix3 (0 : Fin 1) p j) := by
  unfold k1_pay13
  rw [shapeCast_self, addf_apply, mulf_apply, cast_row_col]
  refine congrArg (k1_pay11 (F := Ideal) q k m m' (ix3 (0 : Fin 1) p (0 : Fin 1)) * l (ix3 (0 : Fin 1) p (0 : Fin 1)) + ·) ?_
  refine (Ideal.multiReduction_add_single (k1_pay12 (F := Ideal) q k m) 0x00000000#32 reduces_S1x1024x512_S1x1024 (.inl rfl) rfl (ix2 (0 : Fin 1) p)).trans ?_
  show ∑ j : Fin 512, k1_pay12 (F := Ideal) q k m (reduces_S1x1024x512_S1x1024.lift (ix2 (0 : Fin 1) p) j) = _
  refine Finset.sum_congr rfl fun j _ => ?_
  exact congrArg (k1_pay12 (F := Ideal) q k m) (funext fun a => Fin.ext (by match a with | ⟨0, _⟩ => rfl | ⟨1, _⟩ => rfl | ⟨2, _⟩ => rfl))

theorem pay7_apply (x : FVec Ideal S1x1024x1024 .f32) (wq : FVec Ideal S1024x1024 .bf16) (bq : FVec Ideal S1024 .f32) (p f : Fin 1024) :
    k1_pay7 (F := Ideal) x wq bq (ix3 (0 : Fin 1) p f)
      = (∑ e : Fin 1024, x (ix3 (0 : Fin 1) p e) * wq (ix2 e f)) + bq (ix1 f) := by
  unfold k1_pay7
  simp only [shapeCast_self]
  rw [shapeCast_ab_1ab_apply, truncf_apply, addf_apply, broadcastTo_1b_ab_apply, shapeCast_a_1a_apply]
  refine congrArg (· + bq (ix1 f)) ?_
  refine (Cert.Lib.MatmulPlain.matmul_zero_apply dot_S1024x1024_S1024x1024_S1024x1024_1_0_0_1_n_n rfl rfl rfl rfl rfl rfl none
    (truncf .bf16 (shapeCast S1024x1024 x shapeCasts_S1x1024x1024_S1024x1024) bitsLt_bf16_f32) wq p f).trans ?_
  refine Finset.sum_congr rfl fun e _ => ?_
  rw [truncf_apply, shapeCast_1ab_ab_apply]

end Cert.KernelIdeal.HV

end
-- ==== Proof.KI.R1Math.lean ====
import proofs.«424806_j56435870269801_3_alg».proof.Proof.Spec
import Idealize.ShloMosaic.PureOps.Ideal
import Mathlib.Analysis.SpecialFunctions.Exp
import Mathlib.Algebra.BigOperators.Fin
import Mathlib.Algebra.BigOperators.Intervals
import Mathlib.Data.EReal.Basic
import Mathlib.Data.EReal.Operations

noncomputable section

open scoped BigOperators

namespace Cert.Attn

open Idealize.ShloMosaic

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_sum_mul {ι : Type*} (s : Finset ι) (f g : ι → ℝ) :
    (∑ i ∈ s, ((f i : ℝ) : EReal) * ((g i : ℝ) : EReal)) = ((∑ i ∈ s, f i * g i : ℝ) : EReal) := by
  rw [← coe_sum]; exact Finset.sum_congr rfl fun i _ => (EReal.coe_mul _ _).symm

theorem fold_max_coe {ι : Type*} (s : Finset ι) (hs : s.Nonempty) (f : ι → ℝ) :
    ∃ r : ℝ, s.fold max (⊥ : EReal) (fun i => ((f i : ℝ) : EReal)) = (r : EReal) := by
  classical
  induction s using Finset.induction_on with
  | empty => exact absurd hs (by simp)
  | insert a s ha ih =>
    rw [Finset.fold_insert ha]
    rcases s.eq_empty_or_nonempty with h | h
    · subst h; exact ⟨f a, by simp⟩
    · obtain ⟨r, hr⟩ := ih h
      exact ⟨max (f a) r, by rw [hr]; exact (EReal.coe_strictMono.monotone.map_max).symm⟩

theorem max_bot_coe (r : ℝ) : max (⊥ : EReal) (r : EReal) = (r : EReal) := max_eq_right bot_le

def ext0 {n : ℕ} (f : Fin n → ℝ) (i : ℕ) : ℝ := if h : i < n then f ⟨i, h⟩ else 0

theorem ext0_of_lt {n : ℕ} (f : Fin n → ℝ) (i : ℕ) (h : i < n) : ext0 f i = f ⟨i, h⟩ := dif_pos h

theorem ext0_val {n : ℕ} (f : Fin n → ℝ) (i : Fin n) : ext0 f i.val = f i := by
  rw [ext0_of_lt f i.val i.isLt]

def partL (s : ℕ → Fin 512 → ℝ) (μ : ℝ) (k : ℕ) : ℝ :=
  ∑ kt ∈ Finset.range k, ∑ j : Fin 512, Real.exp (s kt j - μ)

def partA (s v : ℕ → Fin 512 → ℝ) (μ : ℝ) (k : ℕ) : ℝ :=
  ∑ kt ∈ Finset.range k, ∑ j : Fin 512, Real.exp (s kt j - μ) * v kt j

theorem partL_succ (s : ℕ → Fin 512 → ℝ) (μ μ' : ℝ) (k : ℕ) :
    Real.exp (μ - μ') * partL s μ k + ∑ j : Fin 512, Real.exp (s k j - μ') = partL s μ' (k + 1) := by
  unfold partL
  rw [Finset.sum_range_succ, Finset.mul_sum]
  congr 1
  refine Finset.sum_congr rfl fun kt _ => ?_
  rw [Finset.mul_sum]
  refine Finset.sum_congr rfl fun j _ => ?_
  rw [← Real.exp_add]; congr 1; ring

theorem partA_succ (s v : ℕ → Fin 512 → ℝ) (μ μ' : ℝ) (k : ℕ) :
    Real.exp (μ - μ') * partA s v μ k + ∑ j : Fin 512, Real.exp (s k j - μ') * v k j = partA s v μ' (k + 1) := by
  unfold partA
  rw [Finset.sum_range_succ, Finset.mul_sum]
  congr 1
  refine Finset.sum_congr rfl fun kt _ => ?_
  rw [Finset.mul_sum]
  refine Finset.sum_congr rfl fun j _ => ?_
  rw [← mul_assoc, ← Real.exp_add]; congr 2; ring

theorem partL_one (s : ℕ → Fin 512 → ℝ) (μ' : ℝ) : (∑ j : Fin 512, Real.exp (s 0 j - μ')) = partL s μ' 1 := by
  simp [partL]
theorem partA_one (s v : ℕ → Fin 512 → ℝ) (μ' : ℝ) :
    (∑ j : Fin 512, Real.exp (s 0 j - μ') * v 0 j) = partA s v μ' 1 := by
  simp [partA]

theorem partL_pos (s : ℕ → Fin 512 → ℝ) (μ : ℝ) (k : ℕ) : 0 < partL s μ (k + 1) := by
  unfold partL
  refine Finset.sum_pos (fun kt _ => Finset.sum_pos (fun j _ => Real.exp_pos _) ⟨⟨0, by norm_num⟩, Finset.mem_univ _⟩) ⟨0, by simp⟩

theorem l_step_coe (μ μ' L : ℝ) (e : Fin 512 → ℝ) :
    Ideal.exp (((μ : ℝ) : EReal) - ((μ' : ℝ) : EReal)) * ((L : ℝ) : EReal)
        + ∑ j : Fin 512, Ideal.exp (((e j : ℝ) : EReal) - ((μ' : ℝ) : EReal))
      = ((Real.exp (μ - μ') * L + ∑ j : Fin 512, Real.exp (e j - μ') : ℝ) : EReal) := by
  rw [EReal.coe_add, EReal.coe_mul, ← coe_sum]
  rfl

theorem l_first_coe (μ' : ℝ) (e : Fin 512 → ℝ) :
    Ideal.exp ((⊥ : EReal) - ((μ' : ℝ) : EReal)) * (0 : EReal)
        + ∑ j : Fin 512, Ideal.exp (((e j : ℝ) : EReal) - ((μ' : ℝ) : EReal))
      = ((∑ j : Fin 512, Real.exp (e j - μ') : ℝ) : EReal) := by
  rw [mul_zero, zero_add, ← coe_sum]
  rfl

theorem acc_step_coe (μ μ' A : ℝ) (e w : Fin 512 → ℝ) :
    Ideal.exp (((μ : ℝ) : EReal) - ((μ' : ℝ) : EReal)) * ((A : ℝ) : EReal)
        + ∑ j : Fin 512, Ideal.exp (((e j : ℝ) : EReal) - ((μ' : ℝ) : EReal)) * ((w j : ℝ) : EReal)
      = ((Real.exp (μ - μ') * A + ∑ j : Fin 512, Real.exp (e j - μ') * w j : ℝ) : EReal) := by
  rw [EReal.coe_add, EReal.coe_mul, ← coe_sum_mul]
  rfl

theorem acc_first_coe (μ' : ℝ) (e w : Fin 512 → ℝ) :
    Ideal.exp ((⊥ : EReal) - ((μ' : ℝ) : EReal)) * (0 : EReal)
        + ∑ j : Fin 512, Ideal.exp (((e j : ℝ) : EReal) - ((μ' : ℝ) : EReal)) * ((w j : ℝ) : EReal)
      = ((∑ j : Fin 512, Real.exp (e j - μ') * w j : ℝ) : EReal) := by
  rw [mul_zero, zero_add, ← coe_sum_mul]
  rfl

theorem div_coe_coe (a l : ℝ) (hl : l ≠ 0) : Ideal.div ((a : ℝ) : EReal) ((l : ℝ) : EReal) = ((a / l : ℝ) : EReal) := by
  rw [Ideal.div_coe hl, ← EReal.coe_mul]; congr 1; ring

theorem sum_tiles (F : ℕ → ℝ) :
    (∑ kt ∈ Finset.range 4, ∑ j : Fin 512, F (kt * 512 + j.val)) = ∑ k : Fin 2048, F k.val := by
  rw [Fin.sum_univ_eq_sum_range (fun i => F i) 2048]
  have h : ∀ kt : ℕ, (∑ j : Fin 512, F (kt * 512 + j.val)) = ∑ i ∈ Finset.range 512, F (kt * 512 + i) :=
    fun kt => Fin.sum_univ_eq_sum_range (fun i => F (kt * 512 + i)) 512
  simp only [h]
  rw [show (2048 : ℕ) = 512 + 512 + 512 + 512 from rfl, Finset.sum_range_add, Finset.sum_range_add, Finset.sum_range_add]
  simp only [Finset.sum_range_succ, Finset.sum_range_zero, zero_add, Nat.zero_mul, Nat.one_mul]

theorem quot_eq_attend (S Vv : Fin 2048 → ℝ) (μ : ℝ) :
    partA (fun kt j => ext0 S (kt * 512 + j.val)) (fun kt j => ext0 Vv (kt * 512 + j.val)) μ 4
        / partL (fun kt j => ext0 S (kt * 512 + j.val)) μ 4
      = ∑ k : Fin 2048, (Real.exp (S k) / ∑ k' : Fin 2048, Real.exp (S k')) * Vv k := by
  unfold partA partL
  rw [sum_tiles (fun i => Real.exp (ext0 S i - μ) * ext0 Vv i), sum_tiles (fun i => Real.exp (ext0 S i - μ))]
  simp only [ext0_val]
  have hZ : (0 : ℝ) < ∑ k' : Fin 2048, Real.exp (S k') :=
    Finset.sum_pos (fun _ _ => Real.exp_pos _) ⟨⟨0, by norm_num⟩, Finset.mem_univ _⟩
  have e1 : (∑ k : Fin 2048, Real.exp (S k - μ) * Vv k) = Real.exp (-μ) * ∑ k : Fin 2048, Real.exp (S k) * Vv k := by
    rw [Finset.mul_sum]; refine Finset.sum_congr rfl fun k _ => ?_
    rw [← mul_assoc, ← Real.exp_add]; congr 2; ring
  have e2 : (∑ k : Fin 2048, Real.exp (S k - μ)) = Real.exp (-μ) * ∑ k : Fin 2048, Real.exp (S k) := by
    rw [Finset.mul_sum]; refine Finset.sum_congr rfl fun k _ => ?_
    rw [← Real.exp_add]; congr 1; ring
  rw [e1, e2, mul_div_mul_left _ _ (Real.exp_pos _).ne', Finset.sum_div]
  refine Finset.sum_congr rfl fun k _ => ?_
  rw [div_mul_eq_mul_div]

end Cert.Attn

end
-- ==== Proof.KI.R1Blocks.lean ====
import proofs.«424806_j56435870269801_3_alg».proof.Proof.KI.R1Blk
import Idealize.ShloMosaic.Lib.ValueIdx
import Idealize.ShloMosaic.Lib.Pipeline.Value

noncomputable section

namespace Cert.KernelIdeal.HV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.H Idealize.ShloMosaic.ValueIdx

variable {F : FTy → Type} [FloatOps F]

theorem idx_facts1 : ∀ t : Fin cfg1.N,
    win1_0.index t (0 : Fin 3) = t.val / 8 ∧ win1_0.index t (1 : Fin 3) = t.val / 4 % 2 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = t.val / 8 ∧ win1_3.index t (1 : Fin 3) = t.val % 4 ∧ win1_3.index t (2 : Fin 3) = 0
    ∧ win1_4.index t (0 : Fin 3) = t.val / 8 ∧ win1_4.index t (1 : Fin 3) = t.val % 4 ∧ win1_4.index t (2 : Fin 3) = 1
    ∧ win1_5.index t (0 : Fin 3) = t.val / 8 ∧ win1_5.index t (1 : Fin 3) = t.val / 4 % 2 ∧ win1_5.index t (2 : Fin 3) = 0 :=
  (by decide +kernel : ∀ t : Fin grid1.N, _)

section
variable (V : (c : Dev nD) → (b : Ref sig .tc) → Buf (Elt F) ((c : Thread nD τ).loc b))

theorem iblk1_0_apply (c : Dev nD) (t : Fin cfg1.N) (p : Fin 1024) (e : Fin 1024) :
    iblk1 V c 0 t (ix3 (n0 := 1) (n1 := 1024) (n2 := 1024) 0 p e)
      = V c main_arg0 (ix3 (n0 := 4) (n1 := 2048) (n2 := 1024) ⟨t.val / 8, by have h : t.val < 32 := t.isLt; omega⟩
          ⟨(t.val / 4 % 2) * 1024 + p.val, by have h := p.isLt; omega⟩ e) := by
  obtain ⟨e0, e1, e2, -⟩ := idx_facts1 t
  show V c main_arg0 (((cfg1.win 0).blk t).view.emb (ix3 (n0 := 1) (n1 := 1024) (n2 := 1024) 0 p e)) = _
  refine congrArg (V c main_arg0) (funext fun a => Fin.ext ?_)
  match a with
  | ⟨0, _⟩ => show win1_0.index t (0 : Fin 3) * 1 + 1 * 0 = t.val / 8; omega
  | ⟨1, _⟩ => show win1_0.index t (1 : Fin 3) * 1024 + 1 * p.val = (t.val / 4 % 2) * 1024 + p.val; omega
  | ⟨2, _⟩ => show win1_0.index t (2 : Fin 3) * 1024 + 1 * e.val = e.val; omega

theorem iblk1_1_eq (c : Dev nD) (t : Fin cfg1.N) :
    (iblk1 V c 1 t : S1024x1024.Idx → Elt F .bf16) = V c main_v6 := by
  obtain ⟨-, -, -, b0, b1, -⟩ := idx_facts1 t
  funext y
  show V c main_v6 (((cfg1.win 1).blk t).view.emb y) = V c main_v6 y
  refine congrArg (V c main_v6) (funext fun a => Fin.ext ?_)
  match a with
  | ⟨0, _⟩ => show win1_1.index t (0 : Fin 2) * 1024 + 1 * (y 0).val = (y 0).val; omega
  | ⟨1, _⟩ => show win1_1.index t (1 : Fin 2) * 1024 + 1 * (y 1).val = (y 1).val; omega

theorem iblk1_1_apply (c : Dev nD) (t : Fin cfg1.N) (e f : Fin 1024) :
    iblk1 V c 1 t (ix2 (n0 := 1024) (n1 := 1024) e f) = V c main_v6 (ix2 (n0 := 1024) (n1 := 1024) e f) :=
  congrFun (iblk1_1_eq V c t) (ix2 (n0 := 1024) (n1 := 1024) e f)

theorem iblk1_2_eq (c : Dev nD) (t : Fin cfg1.N) :
    (iblk1 V c 2 t : S1024.Idx → Elt F .f32) = V c main_v4 := by
  obtain ⟨-, -, -, -, -, c0, -⟩ := idx_facts1 t
  funext y
  show V c main_v4 (((cfg1.win 2).blk t).view.emb y) = V c main_v4 y
  refine congrArg (V c main_v4) (funext fun a => Fin.ext ?_)
  match a with
  | ⟨0, _⟩ => show win1_2.index t (0 : Fin 1) * 1024 + 1 * (y 0).val = (y 0).val; omega

theorem iblk1_2_apply (c : Dev nD) (t : Fin cfg1.N) (f : Fin 1024) :
    iblk1 V c 2 t (ix1 (n := 1024) f) = V c main_v4 (ix1 (n := 1024) f) :=
  congrFun (iblk1_2_eq V c t) (ix1 (n := 1024) f)

theorem iblk1_3_apply (c : Dev nD) (t : Fin cfg1.N) (j : Fin 512) (f : Fin 1024) :
    iblk1 V c 3 t (ix3 (n0 := 1) (n1 := 512) (n2 := 1024) 0 j f)
      = V c main_v12 (ix3 (n0 := 4) (n1 := 2048) (n2 := 2048) ⟨t.val / 8, by have h : t.val < 32 := t.isLt; omega⟩
          ⟨(t.val % 4) * 512 + j.val, by have h := j.isLt; omega⟩ ⟨f.val, by have h := f.isLt; omega⟩) := by
  obtain ⟨-, -, -, -, -, -, d0, d1, d2, -⟩ := idx_facts1 t
  show V c main_v12 (((cfg1.win 3).blk t).view.emb (ix3 (n0 := 1) (n1 := 512) (n2 := 1024) 0 j f)) = _
  refine congrArg (V c main_v12) (funext fun a => Fin.ext ?_)
  match a with
  | ⟨0, _⟩ => show win1_3.index t (0 : Fin 3) * 1 + 1 * 0 = t.val / 8; omega
  | ⟨1, _⟩ => show win1_3.index t (1 : Fin 3) * 512 + 1 * j.val = (t.val % 4) * 512 + j.val; omega
  | ⟨2, _⟩ => show win1_3.index t (2 : Fin 3) * 1024 + 1 * f.val = f.val; omega

theorem iblk1_4_apply (c : Dev nD) (t : Fin cfg1.N) (j : Fin 512) (d : Fin 1024) :
    iblk1 V c 4 t (ix3 (n0 := 1) (n1 := 512) (n2 := 1024) 0 j d)
      = V c main_v12 (ix3 (n0 := 4) (n1 := 2048) (n2 := 2048) ⟨t.val / 8, by have h : t.val < 32 := t.isLt; omega⟩
          ⟨(t.val % 4) * 512 + j.val, by have h := j.isLt; omega⟩ ⟨1024 + d.val, by have h := d.isLt; omega⟩) := by
  obtain ⟨-, -, -, -, -, -, -, -, -, e0, e1, e2, -⟩ := idx_facts1 t
  show V c main_v12 (((cfg1.win 4).blk t).view.emb (ix3 (n0 := 1) (n1 := 512) (n2 := 1024) 0 j d)) = _
  refine congrArg (V c main_v12) (funext fun a => Fin.ext ?_)
  match a with
  | ⟨0, _⟩ => show win1_4.index t (0 : Fin 3) * 1 + 1 * 0 = t.val / 8; omega
  | ⟨1, _⟩ => show win1_4.index t (1 : Fin 3) * 512 + 1 * j.val = (t.val % 4) * 512 + j.val; omega
  | ⟨2, _⟩ => show win1_4.index t (2 : Fin 3) * 1024 + 1 * d.val = 1024 + d.val; omega

end

end Cert.KernelIdeal.HV

end
-- ==== Proof.KI.R1Cover.lean ====
import proofs.«424806_j56435870269801_3_alg».proof.Proof.KI.R1Blk
import Idealize.ShloMosaic.Lib.Pipeline.Value
import Idealize.ShloMosaic.Lib.Pipeline.Dat
import Idealize.ShloMosaic.Lib.ValueIdx

noncomputable section

namespace Cert.KernelIdeal.HV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.H Idealize.ShloMosaic.ValueIdx

variable {F : FTy → Type} [FloatOps F]

theorem out_idx_facts1 : ∀ t : Fin cfg1.N,
    win1_5.index t (0 : Fin 3) = t.val / 8 ∧ win1_5.index t (1 : Fin 3) = t.val / 4 % 2 ∧ win1_5.index t (2 : Fin 3) = 0 :=
  (by decide +kernel : ∀ t : Fin grid1.N, _)

theorem mem_blk1_5 (t : Fin cfg1.N) (i : S4x2048x1024.Idx) :
    i ∈ ((cfg1.win 5).blk t).view.set
      ↔ ∀ a : Fin 3, win1_5.index t a * S1x1024x1024.size a ≤ (i a).val
          ∧ (i a).val < win1_5.index t a * S1x1024x1024.size a + S1x1024x1024.size a := by
  show i ∈ ((View.whole main_v13).slice (win1_5.rect t)).set ↔ _
  rw [View.set_slice_whole, Rect.mem_set_unit]
  exact Iff.rfl

theorem cover1_5 (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  have hlt : (i 0).val * 8 + ((i 1).val / 1024) * 4 + 3 < cfg1.N := by
    show (i 0).val * 8 + ((i 1).val / 1024) * 4 + 3 < 32
    omega
  refine ⟨⟨(i 0).val * 8 + ((i 1).val / 1024) * 4 + 3, hlt⟩, ?_, ?_⟩
  · refine (flush1_5 _).mpr ?_
    show ((i 0).val * 8 + ((i 1).val / 1024) * 4 + 3) % 4 = 3
    omega
  · rw [mem_blk1_5]
    obtain ⟨f0, f1, f2⟩ := out_idx_facts1 ⟨(i 0).val * 8 + ((i 1).val / 1024) * 4 + 3, hlt⟩
    have g0 : win1_5.index ⟨(i 0).val * 8 + ((i 1).val / 1024) * 4 + 3, hlt⟩ (0 : Fin 3) = (i 0).val := by
      rw [f0]; show ((i 0).val * 8 + ((i 1).val / 1024) * 4 + 3) / 8 = (i 0).val; omega
    have g1 : win1_5.index ⟨(i 0).val * 8 + ((i 1).val / 1024) * 4 + 3, hlt⟩ (1 : Fin 3) = (i 1).val / 1024 := by
      rw [f1]; show ((i 0).val * 8 + ((i 1).val / 1024) * 4 + 3) / 4 % 2 = (i 1).val / 1024; omega
    intro a
    match a with
    | ⟨0, _⟩ =>
      show win1_5.index _ (0 : Fin 3) * 1 ≤ (i 0).val ∧ (i 0).val < win1_5.index _ (0 : Fin 3) * 1 + 1
      rw [g0]; omega
    | ⟨1, _⟩ =>
      show win1_5.index _ (1 : Fin 3) * 1024 ≤ (i 1).val ∧ (i 1).val < win1_5.index _ (1 : Fin 3) * 1024 + 1024
      rw [g1]; omega
    | ⟨2, _⟩ =>
      show win1_5.index _ (2 : Fin 3) * 1024 ≤ (i 2).val ∧ (i 2).val < win1_5.index _ (2 : Fin 3) * 1024 + 1024
      rw [f2]; omega

theorem arrAt5_of_blocks {c : Dev nD} (dat : Dat τ (Elt F) Unit ℕ (UR sig nD τ) ℕ cfg1 c)
    (G : S4x2048x1024.Idx → Elt F .f32)
    (h : ∀ t : Fin cfg1.N, t.val % 4 = 3 → dat.flushed 5 t = ((cfg1.win 5).blk t).view.read (Elt F) G) :
    dat.arrAt 5 cfg1.N = G :=
  dat.arrAt_eq_of_cover 5 G (fun t hf => h t ((flush1_5 t).mp hf)) cover1_5

end Cert.KernelIdeal.HV

end
-- ==== Proof.KI.R1OutBlk.lean ====
import proofs.«424806_j56435870269801_3_alg».proof.Proof.KI.R1Blk
import proofs.«424806_j56435870269801_3_alg».proof.Proof.Spec
import Idealize.ShloMosaic.Lib.ValueIdx
import Idealize.ShloMosaic.Lib.Pipeline.Value

noncomputable section

namespace Cert.KernelIdeal.HV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.H Idealize.ShloMosaic.ValueIdx

variable {F : FTy → Type} [FloatOps F]

theorem outblk_idx_facts1 : ∀ t : Fin cfg1.N,
    win1_5.index t (0 : Fin 3) = t.val / 8 ∧ win1_5.index t (1 : Fin 3) = t.val / 4 % 2 ∧ win1_5.index t (2 : Fin 3) = 0 :=
  (by decide +kernel : ∀ t : Fin grid1.N, _)

theorem out_block_eq (t : Fin cfg1.N) (o : Vec Ideal S1x1024x1024 .f32) (G : Fin 4 → Fin 2048 → Fin 1024 → ℝ)
    (h : ∀ p d : Fin 1024, o (ix3 (n0 := 1) (n1 := 1024) (n2 := 1024) 0 p d)
        = ((G ⟨t.val / 8, by have h : t.val < 32 := t.isLt; omega⟩
              ⟨(t.val / 4 % 2) * 1024 + p.val, by have h := p.isLt; omega⟩ d : ℝ) : EReal)) :
    (cfg1.win 5).cut (grid1.coords t) o = ((cfg1.win 5).blk t).view.read (Elt Ideal) (Cert.Attn.up3 G) := by
  obtain ⟨f0, f1, f2⟩ := outblk_idx_facts1 t
  funext y
  have h0 : (y 0).val = 0 := by
    have hy : (y 0).val < 1 := (y 0).isLt
    omega
  have hy1 : (y 1).val < 1024 := (y 1).isLt
  have hy2 : (y 2).val < 1024 := (y 2).isLt
  have e1 : (cfg1.win 5).xinj (grid1.coords t) y
      = ix3 (n0 := 1) (n1 := 1024) (n2 := 1024) 0 ⟨(y 1).val, hy1⟩ ⟨(y 2).val, hy2⟩ :=
    funext fun a => Fin.ext (by
      match a with
      | ⟨0, _⟩ => exact h0
      | ⟨1, _⟩ => rfl
      | ⟨2, _⟩ => rfl)
  have e2 : ((cfg1.win 5).blk t).view.emb y
      = ix3 (n0 := 4) (n1 := 2048) (n2 := 1024) ⟨t.val / 8, by have h : t.val < 32 := t.isLt; omega⟩
          ⟨(t.val / 4 % 2) * 1024 + (y 1).val, by omega⟩ ⟨(y 2).val, hy2⟩ :=
    funext fun a => Fin.ext (by
      match a with
      | ⟨0, _⟩ => show win1_5.index t (0 : Fin 3) * 1 + 1 * (y 0).val = t.val / 8; omega
      | ⟨1, _⟩ => show win1_5.index t (1 : Fin 3) * 1024 + 1 * (y 1).val = (t.val / 4 % 2) * 1024 + (y 1).val; omega
      | ⟨2, _⟩ => show win1_5.index t (2 : Fin 3) * 1024 + 1 * (y 2).val = (y 2).val; omega)
  show o ((cfg1.win 5).xinj (grid1.coords t) y) = Cert.Attn.up3 G (((cfg1.win 5).blk t).view.emb y)
  exact (congrArg o e1).trans ((h ⟨(y 1).val, hy1⟩ ⟨(y 2).val, hy2⟩).trans (congrArg (Cert.Attn.up3 G) e2).symm)

end Cert.KernelIdeal.HV

end
-- ==== Proof.KI.R1Value.lean ====
import proofs.«424806_j56435870269801_3_alg».proof.Proof.KI.R1Pay
import proofs.«424806_j56435870269801_3_alg».proof.Proof.KI.R1Math
import proofs.«424806_j56435870269801_3_alg».proof.Proof.Spec
import proofs.«424806_j56435870269801_3_alg».proof.Proof.KI.R1Dat
import proofs.«424806_j56435870269801_3_alg».proof.Proof.KI.R1Blocks
import proofs.«424806_j56435870269801_3_alg».proof.Proof.KI.R1Cover
import proofs.«424806_j56435870269801_3_alg».proof.Proof.KI.R1OutBlk

noncomputable section

namespace Cert.KernelIdeal.HV

open Idealize.ShloMosaic Idealize.ShloMosaic.ValueIdx Cert.KernelIdeal Cert.KernelIdeal.Gen Cert.Attn

section Step

variable (q : FVec Ideal S1x1024x1024 .bf16) (k v : FVec Ideal S1x512x1024 .bf16)
  (m l : FVec Ideal S1x1024x1 .f32) (acc : FVec Ideal S1x1024x1024 .f32)
  (Qr : Fin 1024 → Fin 1024 → ℝ) (Kr Vr : Fin 512 → Fin 1024 → ℝ) (sc : Fin 1024 → Fin 512 → ℝ)

theorem score_coe (hq : ∀ p f, q (ix3 (0 : Fin 1) p f) = ((Qr p f : ℝ) : EReal))
    (hk : ∀ j f, k (ix3 (0 : Fin 1) j f) = ((Kr j f : ℝ) : EReal))
    (hsc : ∀ p j, (∑ f : Fin 1024, Qr p f * Kr j f) = sc p j) (p : Fin 1024) (j : Fin 512) :
    k1_pay9 (F := Ideal) q k (ix3 (0 : Fin 1) p j) = ((sc p j : ℝ) : EReal) := by
  rw [pay9_apply, ← hsc p j]
  simp only [hq, hk]
  exact coe_sum_mul _ _ _

theorem newmax_real (hq : ∀ p f, q (ix3 (0 : Fin 1) p f) = ((Qr p f : ℝ) : EReal))
    (hk : ∀ j f, k (ix3 (0 : Fin 1) j f) = ((Kr j f : ℝ) : EReal))
    (hsc : ∀ p j, (∑ f : Fin 1024, Qr p f * Kr j f) = sc p j)
    (hm : ∀ p, m (ix3 (0 : Fin 1) p (0 : Fin 1)) = (⊥ : EReal) ∨ ∃ r : ℝ, m (ix3 (0 : Fin 1) p (0 : Fin 1)) = (r : EReal)) :
    ∃ μ' : Fin 1024 → ℝ, ∀ p, k1_pay10 (F := Ideal) q k m (ix3 (0 : Fin 1) p (0 : Fin 1)) = ((μ' p : ℝ) : EReal) := by
  have h : ∀ p, ∃ r : ℝ, k1_pay10 (F := Ideal) q k m (ix3 (0 : Fin 1) p (0 : Fin 1)) = (r : EReal) := fun p => by
    obtain ⟨r, hr⟩ := rowmax_real q k p (fun j => ⟨_, score_coe q k Qr Kr sc hq hk hsc p j⟩)
    rw [pay10_apply, hr]
    rcases hm p with h | ⟨r0, h⟩
    · rw [h]; exact ⟨r, max_bot_coe r⟩
    · rw [h]; exact ⟨max r0 r, (EReal.coe_strictMono.monotone.map_max).symm⟩
  choose μ' hμ' using h
  exact ⟨μ', hμ'⟩

theorem step_next (μ L : Fin 1024 → ℝ) (A : Fin 1024 → Fin 1024 → ℝ)
    (hq : ∀ p f, q (ix3 (0 : Fin 1) p f) = ((Qr p f : ℝ) : EReal))
    (hk : ∀ j f, k (ix3 (0 : Fin 1) j f) = ((Kr j f : ℝ) : EReal))
    (hsc : ∀ p j, (∑ f : Fin 1024, Qr p f * Kr j f) = sc p j)
    (hv : ∀ j d, v (ix3 (0 : Fin 1) j d) = ((Vr j d : ℝ) : EReal))
    (hm : ∀ p, m (ix3 (0 : Fin 1) p (0 : Fin 1)) = ((μ p : ℝ) : EReal))
    (hl : ∀ p, l (ix3 (0 : Fin 1) p (0 : Fin 1)) = ((L p : ℝ) : EReal))
    (hacc : ∀ p d, acc (ix3 (0 : Fin 1) p d) = ((A p d : ℝ) : EReal)) :
    ∃ μ' : Fin 1024 → ℝ,
      (∀ p, k1_pay2 (F := Ideal) (k1_pay10 (F := Ideal) q k m) (ix3 (0 : Fin 1) p (0 : Fin 1)) = ((μ' p : ℝ) : EReal))
      ∧ (∀ p, k1_pay13 (F := Ideal) q k m m l (ix3 (0 : Fin 1) p (0 : Fin 1))
          = ((Real.exp (μ p - μ' p) * L p + ∑ j : Fin 512, Real.exp (sc p j - μ' p) : ℝ) : EReal))
      ∧ (∀ p d, k1_pay1 (F := Ideal) (k1_pay8 (F := Ideal) v) (k1_pay11 (F := Ideal) q k m m) (k1_pay12 (F := Ideal) q k m) acc (ix3 (0 : Fin 1) p d)
          = ((Real.exp (μ p - μ' p) * A p d + ∑ j : Fin 512, Real.exp (sc p j - μ' p) * Vr j d : ℝ) : EReal)) := by
  have hs := score_coe q k Qr Kr sc hq hk hsc
  obtain ⟨μ', hμ'⟩ := newmax_real q k m Qr Kr sc hq hk hsc (fun p => Or.inr ⟨μ p, hm p⟩)
  refine ⟨μ', fun p => by rw [pay2_apply]; exact hμ' p, fun p => ?_, fun p d => ?_⟩
  · rw [pay13_apply, pay11_apply, hμ' p, hm p, hl p]
    simp only [pay12_apply, hs, hμ' p]
    exact l_step_coe (μ p) (μ' p) (L p) (fun j => sc p j)
  · rw [pay1_apply, pay11_apply, hμ' p, hm p, hacc p d, pay8_apply]
    simp only [pay12_apply, hs, hμ' p, hv]
    exact acc_step_coe (μ p) (μ' p) (A p d) (fun j => sc p j) (fun j => Vr j d)

theorem step_first
    (hq : ∀ p f, q (ix3 (0 : Fin 1) p f) = ((Qr p f : ℝ) : EReal))
    (hk : ∀ j f, k (ix3 (0 : Fin 1) j f) = ((Kr j f : ℝ) : EReal))
    (hsc : ∀ p j, (∑ f : Fin 1024, Qr p f * Kr j f) = sc p j)
    (hv : ∀ j d, v (ix3 (0 : Fin 1) j d) = ((Vr j d : ℝ) : EReal))
    (hm : ∀ p, m (ix3 (0 : Fin 1) p (0 : Fin 1)) = (⊥ : EReal))
    (hl : ∀ p, l (ix3 (0 : Fin 1) p (0 : Fin 1)) = (0 : EReal))
    (hacc : ∀ p d, acc (ix3 (0 : Fin 1) p d) = (0 : EReal)) :
    ∃ μ' : Fin 1024 → ℝ,
      (∀ p, k1_pay2 (F := Ideal) (k1_pay10 (F := Ideal) q k m) (ix3 (0 : Fin 1) p (0 : Fin 1)) = ((μ' p : ℝ) : EReal))
      ∧ (∀ p, k1_pay13 (F := Ideal) q k m m l (ix3 (0 : Fin 1) p (0 : Fin 1))
          = ((∑ j : Fin 512, Real.exp (sc p j - μ' p) : ℝ) : EReal))
      ∧ (∀ p d, k1_pay1 (F := Ideal) (k1_pay8 (F := Ideal) v) (k1_pay11 (F := Ideal) q k m m) (k1_pay12 (F := Ideal) q k m) acc (ix3 (0 : Fin 1) p d)
          = ((∑ j : Fin 512, Real.exp (sc p j - μ' p) * Vr j d : ℝ) : EReal)) := by
  have hs := score_coe q k Qr Kr sc hq hk hsc
  obtain ⟨μ', hμ'⟩ := newmax_real q k m Qr Kr sc hq hk hsc (fun p => Or.inl (hm p))
  refine ⟨μ', fun p => by rw [pay2_apply]; exact hμ' p, fun p => ?_, fun p d => ?_⟩
  · rw [pay13_apply, pay11_apply, hμ' p, hm p, hl p]
    simp only [pay12_apply, hs, hμ' p]
    exact l_first_coe (μ' p) (fun j => sc p j)
  · rw [pay1_apply, pay11_apply, hμ' p, hm p, hacc p d, pay8_apply]
    simp only [pay12_apply, hs, hμ' p, hv]
    exact acc_first_coe (μ' p) (fun j => sc p j) (fun j => Vr j d)

end Step

section Rows

variable (x : Fin 4 → Fin 2048 → Fin 1024 → ℝ) (Wt : Fin 1024 → Fin 1024 → ℝ) (bs : Fin 1024 → ℝ)
  (kv : Fin 4 → Fin 2048 → Fin 2048 → ℝ)

def bOf (n : ℕ) : Fin 4 := ⟨n / 8 % 4, Nat.mod_lt _ (by norm_num)⟩

def rowOf (n : ℕ) (p : Fin 1024) : Fin 2048 := ⟨(n / 4 % 2 * 1024 + p.val) % 2048, Nat.mod_lt _ (by norm_num)⟩

theorem bOf_pred (n : ℕ) (h : n % 4 ≠ 0) : bOf (n - 1) = bOf n := Fin.ext (by show (n - 1) / 8 % 4 = n / 8 % 4; omega)
theorem rowOf_pred (n : ℕ) (h : n % 4 ≠ 0) (p : Fin 1024) : rowOf (n - 1) p = rowOf n p :=
  Fin.ext (by show ((n - 1) / 4 % 2 * 1024 + p.val) % 2048 = (n / 4 % 2 * 1024 + p.val) % 2048; have : (n - 1) / 4 = n / 4 := by omega
              rw [this])

theorem bOf_eq (n : ℕ) (h : n < 32) (h' : n / 8 < 4) : bOf n = ⟨n / 8, h'⟩ := Fin.ext (by show n / 8 % 4 = n / 8; omega)
theorem rowOf_eq (n : ℕ) (p : Fin 1024) (h' : n / 4 % 2 * 1024 + p.val < 2048) : rowOf n p = ⟨n / 4 % 2 * 1024 + p.val, h'⟩ :=
  Fin.ext (by show (n / 4 % 2 * 1024 + p.val) % 2048 = _; exact Nat.mod_eq_of_lt h')

def Qf (b : Fin 4) (r : Fin 2048) (f : Fin 1024) : ℝ := (∑ e, x b r e * Wt e f) + bs f

def Sf (b : Fin 4) (r : Fin 2048) (k : Fin 2048) : ℝ := ∑ f : Fin 1024, Qf x Wt bs b r f * kv b k (Fin.castAdd 1024 f)

def Vf (b : Fin 4) (d : Fin 1024) (k : Fin 2048) : ℝ := kv b k (Fin.natAdd 1024 d)

def sT (b : Fin 4) (r : Fin 2048) : ℕ → Fin 512 → ℝ := fun kt j => ext0 (Sf x Wt bs kv b r) (kt * 512 + j.val)

def vT (b : Fin 4) (d : Fin 1024) : ℕ → Fin 512 → ℝ := fun kt j => ext0 (Vf kv b d) (kt * 512 + j.val)

theorem sT_apply (b : Fin 4) (r : Fin 2048) (kt : ℕ) (j : Fin 512) (h : kt * 512 + j.val < 2048) :
    sT x Wt bs kv b r kt j = ∑ f : Fin 1024, Qf x Wt bs b r f * kv b ⟨kt * 512 + j.val, h⟩ (Fin.castAdd 1024 f) :=
  ext0_of_lt _ _ h
theorem vT_apply (b : Fin 4) (d : Fin 1024) (kt : ℕ) (j : Fin 512) (h : kt * 512 + j.val < 2048) :
    vT kv b d kt j = kv b ⟨kt * 512 + j.val, h⟩ (Fin.natAdd 1024 d) :=
  ext0_of_lt _ _ h

theorem quot_flash (acc : Vec Ideal S1x1024x1024 .f32) (l : Vec Ideal S1x1024x1 .f32) (b : Fin 4) (r : Fin 2048) (μ : ℝ) (p d : Fin 1024)
    (hl : l (ix3 (0 : Fin 1) p (0 : Fin 1)) = ((partL (sT x Wt bs kv b r) μ 4 : ℝ) : EReal))
    (hacc : acc (ix3 (0 : Fin 1) p d) = ((partA (sT x Wt bs kv b r) (vT kv b d) μ 4 : ℝ) : EReal)) :
    k1_pay3 (F := Ideal) acc l (ix3 (0 : Fin 1) p d) = ((flash x Wt bs kv b r d : ℝ) : EReal) := by
  rw [pay3_apply, hacc, hl, div_coe_coe _ _ (partL_pos _ _ 3).ne']
  exact congrArg _ (quot_eq_attend (Sf x Wt bs kv b r) (Vf kv b d) μ)

end Rows

section Inv

open Cert.KernelIdeal.H
open Idealize.ShloMosaic.TcCoe Idealize.SL.Sem
open Idealize.ShloMosaic.Pipeline (Dat)

variable (V : (c : Dev nD) → (b : Ref sig .tc) → Buf (Elt Ideal) ((c : Thread nD τ).loc b)) (c : Dev nD)

abbrev xblk (t : Fin cfg1.N) : Vec Ideal S1x1024x1024 .f32 := iblk1 V c 0 t
abbrev wblk (t : Fin cfg1.N) : Vec Ideal S1024x1024 .bf16 := iblk1 V c 1 t
abbrev bblk (t : Fin cfg1.N) : Vec Ideal S1024 .f32 := iblk1 V c 2 t
abbrev kblk (t : Fin cfg1.N) : Vec Ideal S1x512x1024 .bf16 := iblk1 V c 3 t
abbrev vblk (t : Fin cfg1.N) : Vec Ideal S1x512x1024 .bf16 := iblk1 V c 4 t
variable (x : Fin 4 → Fin 2048 → Fin 1024 → ℝ) (Wt : Fin 1024 → Fin 1024 → ℝ) (bs : Fin 1024 → ℝ)
  (kv : Fin 4 → Fin 2048 → Fin 2048 → ℝ)
  (hA0 : V c main_arg0 = Cert.Attn.up3 x) (hA6 : V c main_v6 = Cert.Attn.up2 Wt) (hA4 : V c main_v4 = Cert.Attn.up1 bs)
  (hA12 : V c main_v12 = Cert.Attn.up3 kv)

include hA12 in

theorem kblk_apply (t : Fin cfg1.N) (j : Fin 512) (f : Fin 1024) :
    kblk V c t (ix3 (0 : Fin 1) j f)
      = ((kv (bOf t.val) ⟨t.val % 4 * 512 + j.val, by have := j.isLt; omega⟩ (Fin.castAdd 1024 f) : ℝ) : EReal) := by
  have h32 : t.val < 32 := t.isLt
  refine (iblk1_3_apply V c t j f).trans ?_
  rw [hA12, bOf_eq t.val h32 (by omega)]
  rfl

include hA12 in

theorem vblk_apply (t : Fin cfg1.N) (j : Fin 512) (d : Fin 1024) :
    vblk V c t (ix3 (0 : Fin 1) j d) = ((vT kv (bOf t.val) d (t.val % 4) j : ℝ) : EReal) := by
  have h32 : t.val < 32 := t.isLt
  refine (iblk1_4_apply V c t j d).trans ?_
  rw [hA12, vT_apply kv (bOf t.val) d (t.val % 4) j (by have := j.isLt; omega), bOf_eq t.val h32 (by omega)]
  rfl

include hA0 hA6 hA4 in

theorem q_first (t : Fin cfg1.N) (p f : Fin 1024) :
    k1_pay7 (F := Ideal) (xblk V c t) (wblk V c t) (bblk V c t) (ix3 (0 : Fin 1) p f)
      = ((Qf x Wt bs (bOf t.val) (rowOf t.val p) f : ℝ) : EReal) := by
  have h32 : t.val < 32 := t.isLt
  rw [pay7_apply]
  have hx : ∀ e : Fin 1024, xblk V c t (ix3 (0 : Fin 1) p e) = ((x (bOf t.val) (rowOf t.val p) e : ℝ) : EReal) := fun e => by
    refine (iblk1_0_apply V c t p e).trans ?_
    rw [hA0, bOf_eq t.val h32 (by omega), rowOf_eq t.val p (by have := p.isLt; omega)]
    rfl
  have hw : ∀ e : Fin 1024, wblk V c t (ix2 e f) = ((Wt e f : ℝ) : EReal) := fun e => by
    refine (iblk1_1_apply V c t e f).trans ?_
    rw [hA6]; rfl
  have hb : bblk V c t (ix1 f) = ((bs f : ℝ) : EReal) := by
    refine (iblk1_2_apply V c t f).trans ?_
    rw [hA4]; rfl
  simp only [hx, hw, hb]
  rw [coe_sum_mul, ← EReal.coe_add]
  rfl

theorem sc_apply (t : Fin cfg1.N) (p : Fin 1024) (j : Fin 512) :
    (∑ f : Fin 1024, (fun (p f : Fin 1024) => Qf x Wt bs (bOf t.val) (rowOf t.val p) f) p f * (fun (j : Fin 512) (f : Fin 1024) => kv (bOf t.val) ⟨t.val % 4 * 512 + j.val, by have := j.isLt; omega⟩ (Fin.castAdd 1024 f)) j f) = (fun (p : Fin 1024) (j : Fin 512) => sT x Wt bs kv (bOf t.val) (rowOf t.val p) (t.val % 4) j) p j :=
  (sT_apply x Wt bs kv (bOf t.val) (rowOf t.val p) (t.val % 4) j (by have := j.isLt; omega)).symm

def Inv (n : ℕ) (hn : n < cfg1.N) : Prop :=
  ∃ μ : Fin 1024 → ℝ,
    (∀ p : Fin 1024, (outsAt1 V c n hn).2.1 (ix3 (0 : Fin 1) p (0 : Fin 1)) = ((μ p : ℝ) : EReal))
    ∧ (∀ p : Fin 1024, (outsAt1 V c n hn).2.2.1 (ix3 (0 : Fin 1) p (0 : Fin 1))
        = ((partL (sT x Wt bs kv (bOf n) (rowOf n p)) (μ p) (n % 4 + 1) : ℝ) : EReal))
    ∧ (∀ p d : Fin 1024, (outsAt1 V c n hn).2.2.2.1 (ix3 (0 : Fin 1) p d)
        = ((partA (sT x Wt bs kv (bOf n) (rowOf n p)) (vT kv (bOf n) d) (μ p) (n % 4 + 1) : ℝ) : EReal))
    ∧ (∀ p f : Fin 1024, (outsAt1 V c n hn).2.2.2.2 (ix3 (0 : Fin 1) p f) = ((Qf x Wt bs (bOf n) (rowOf n p) f : ℝ) : EReal))

include hA0 hA6 hA4 hA12 in

theorem inv_first (t : Fin cfg1.N) (h0 : t.val % 4 = 0) : Inv V c x Wt bs kv t.val t.isLt := by
  have hq := q_first V c x Wt bs hA0 hA6 hA4 t
  obtain ⟨μ', r0, r1, r2⟩ := step_first (k1_pay7 (F := Ideal) (xblk V c t) (wblk V c t) (bblk V c t)) (kblk V c t) (vblk V c t) (k1_pay4 (F := Ideal)) (k1_pay5 (F := Ideal)) (k1_pay6 (F := Ideal))
    _ _ _ _ hq (kblk_apply V c kv hA12 t) (sc_apply x Wt bs kv t) (vblk_apply V c kv hA12 t)
    pay4_apply pay5_apply pay6_apply
  unfold Inv; rw [outsAt1_A V c t h0]; dsimp only [upd1]
  refine ⟨μ', r0, fun p => ?_, fun p d => ?_, hq⟩
  · rw [r1 p, h0]
    exact congrArg Real.toEReal (partL_one (sT x Wt bs kv (bOf t.val) (rowOf t.val p)) (μ' p))
  · rw [r2 p d, h0]
    exact congrArg Real.toEReal (partA_one (sT x Wt bs kv (bOf t.val) (rowOf t.val p)) (vT kv (bOf t.val) d) (μ' p))

include hA12 in

theorem inv_step (t : Fin cfg1.N) (h0 : ¬t.val % 4 = 0)
    (ih : Inv V c x Wt bs kv (t.val - 1) (Nat.lt_of_le_of_lt (Nat.sub_le _ _) t.isLt)) : Inv V c x Wt bs kv t.val t.isLt := by
  obtain ⟨μ, i0, i1, i2, i3⟩ := ih
  have hbp := bOf_pred t.val h0
  have hrp := rowOf_pred t.val h0
  have hk : (t.val - 1) % 4 + 1 = t.val % 4 := by omega
  simp only [hbp, hrp, hk] at i1 i2 i3
  obtain ⟨μ', r0, r1, r2⟩ := step_next (prev1 V c t).2.2.2.2 (kblk V c t) (vblk V c t) (prev1 V c t).2.1 (prev1 V c t).2.2.1 (prev1 V c t).2.2.2.1
    _ _ _ _ μ
    (fun p => partL (sT x Wt bs kv (bOf t.val) (rowOf t.val p)) (μ p) (t.val % 4))
    (fun p d => partA (sT x Wt bs kv (bOf t.val) (rowOf t.val p)) (vT kv (bOf t.val) d) (μ p) (t.val % 4))
    i3 (kblk_apply V c kv hA12 t) (sc_apply x Wt bs kv t) (vblk_apply V c kv hA12 t) i0 i1 i2
  unfold Inv; rw [outsAt1_BC V c t h0]; dsimp only [upd1]
  refine ⟨μ', r0, fun p => ?_, fun p d => ?_, i3⟩
  · rw [r1 p]
    exact congrArg Real.toEReal (partL_succ (sT x Wt bs kv (bOf t.val) (rowOf t.val p)) (μ p) (μ' p) (t.val % 4))
  · rw [r2 p d]
    exact congrArg Real.toEReal (partA_succ (sT x Wt bs kv (bOf t.val) (rowOf t.val p)) (vT kv (bOf t.val) d) (μ p) (μ' p) (t.val % 4))

include hA0 hA6 hA4 hA12 in

theorem inv : ∀ (n : ℕ) (hn : n < cfg1.N), Inv V c x Wt bs kv n hn
  | 0, hn => inv_first V c x Wt bs kv hA0 hA6 hA4 hA12 ⟨0, hn⟩ rfl
  | n + 1, hn =>
    if h0 : (n + 1) % 4 = 0 then inv_first V c x Wt bs kv hA0 hA6 hA4 hA12 ⟨n + 1, hn⟩ h0
    else inv_step V c x Wt bs kv hA12 ⟨n + 1, hn⟩ h0 (inv n (Nat.lt_of_succ_lt hn))

include hA0 hA6 hA4 hA12 in

theorem out_final_of_inv : (dat1 (F := Ideal) V c).arrAt 5 cfg1.N = Cert.Attn.up3 (Cert.Attn.flash x Wt bs kv) := by
  refine arrAt5_of_blocks (dat1 (F := Ideal) V c) (Cert.Attn.up3 (Cert.Attn.flash x Wt bs kv)) fun t ht => ?_
  show (cfg1.win 5).cut (grid1.coords t) ((dat1 (F := Ideal) V c).after 5 t) = _
  rw [after1_5]
  have h32 : t.val < 32 := t.isLt
  have h0 : ¬t.val % 4 = 0 := by omega
  refine out_block_eq t _ (Cert.Attn.flash x Wt bs kv) fun p d => ?_
  obtain ⟨μ, i0, i1, i2, i3⟩ := inv V c x Wt bs kv hA0 hA6 hA4 hA12 t.val t.isLt
  rw [ht] at i1 i2
  rw [show (outsAt1 V c t.val t.isLt).1 = k1_pay3 (F := Ideal) (outsAt1 V c t.val t.isLt).2.2.2.1 (outsAt1 V c t.val t.isLt).2.2.1 from by
    simp only [outsAt1_BC V c t h0, upd1]]
  refine (quot_flash x Wt bs kv _ _ (bOf t.val) (rowOf t.val p) (μ p) p d (i1 p) (i2 p d)).trans ?_
  rw [bOf_eq t.val h32 (by omega), rowOf_eq t.val p (by have := p.isLt; omega)]

end Inv

section Final

open Cert.KernelIdeal.H
open Idealize.ShloMosaic.TcCoe Idealize.SL.Sem

theorem out_final (V : (c : Dev nD) → (b : Ref sig .tc) → Buf (Elt Ideal) ((c : Thread nD τ).loc b)) (c : Dev nD)
    (x : Fin 4 → Fin 2048 → Fin 1024 → ℝ) (Wt : Fin 1024 → Fin 1024 → ℝ) (bs : Fin 1024 → ℝ) (kv : Fin 4 → Fin 2048 → Fin 2048 → ℝ)
    (h0 : V c main_arg0 = Cert.Attn.up3 x) (h6 : V c main_v6 = Cert.Attn.up2 Wt) (h4 : V c main_v4 = Cert.Attn.up1 bs) (h12 : V c main_v12 = Cert.Attn.up3 kv) :
    (dat1 (F := Ideal) V c).arrAt 5 cfg1.N = Cert.Attn.up3 (Cert.Attn.flash x Wt bs kv) :=
  out_final_of_inv V c x Wt bs kv h0 h6 h4 h12

end Final

end Cert.KernelIdeal.HV

end
-- ==== Proof.KI.Host.lean ====
import proofs.«424806_j56435870269801_3_alg».proof.Proof.Gen.KernelIdeal.Launch
import proofs.«424806_j56435870269801_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HV

open Idealize.ShloMosaic Idealize.ShloMosaic.TcCoe Idealize.ShloMosaic.ValueIdx
open Cert.KernelIdeal Cert.KernelIdeal.Gen Cert.Attn

theorem ofBits_inv32 : Ideal.ofBits .f32 0x3D000000#32 = ((1 / 32 : ℝ) : EReal) := by
  simp [Ideal.ofBits, Ideal.ieee, -EReal.coe_mul]; norm_num

theorem reshape_x (x : Fin 4 → Fin 2048 → Fin 1024 → ℝ) (h : S4x2048x1024.ShapeCasts S8192x1024) :
    shapeCast S8192x1024 (up3 x) h = up2 (x2R x) := by
  funext j
  obtain ⟨r, e, rfl⟩ : ∃ (r : Fin 8192) (e : Fin 1024), j = ix2 r e := ⟨j 0, j 1, eq_ix2 j⟩
  have hr := r.isLt
  refine (shapeCast_apply (up3 x) h (ix2 r e)
    (ix3 ⟨r.val / 2048, by omega⟩ ⟨r.val % 2048, Nat.mod_lt _ (by norm_num)⟩ e) ?_).trans ?_
  · rw [Shape.rowMajor_val_three, Shape.rowMajor_val_two]
    show (r.val / 2048 * 2048 + r.val % 2048) * 1024 + e.val = r.val * 1024 + e.val
    omega
  · rfl

theorem reshape_kv (kv2 : Fin 8192 → Fin 2048 → ℝ) (h : S8192x2048.ShapeCasts S4x2048x2048) :
    shapeCast S4x2048x2048 (up2 kv2) h = up3 (kv3R kv2) := by
  funext j
  obtain ⟨n, s, c, rfl⟩ : ∃ (n : Fin 4) (s : Fin 2048) (c : Fin 2048), j = ix3 n s c :=
    ⟨j 0, j 1, j 2, eq_ix3 j⟩
  have hn := n.isLt
  have hs := s.isLt
  refine (shapeCast_apply (up2 kv2) h (ix3 n s c) (ix2 ⟨n.val * 2048 + s.val, by omega⟩ c) ?_).trans ?_
  · rw [Shape.rowMajor_val_three, Shape.rowMajor_val_two]
    rfl
  · rfl

theorem wq_term (Wq : Fin 1024 → Fin 1024 → ℝ) (hb : S_.BroadcastsInDim S1024x1024 (![] : Fin 0 → Fin S1024x1024.rank))
    (ht : S1024x1024.Transposes [1, 0] S1024x1024) (hl : FTy.bits .bf16 < FTy.bits .f32) :
    truncf (F := Ideal) .bf16
        (transpose S1024x1024 [1, 0]
          (mulf (F := Ideal) (up2 Wq) (broadcastInDim S1024x1024 ![] hb (constant (F := Ideal) S_ .f32 0x3D000000#32))) ht) hl
      = up2 (WqtR Wq) := by
  funext j
  obtain ⟨e, f, rfl⟩ : ∃ (e f : Fin 1024), j = ix2 e f := ⟨j 0, j 1, eq_ix2 j⟩
  show transpose S1024x1024 [1, 0]
      (mulf (F := Ideal) (up2 Wq) (broadcastInDim S1024x1024 ![] hb (constant (F := Ideal) S_ .f32 0x3D000000#32))) ht (ix2 e f) = _
  refine (transpose_ix2_apply _ ht e f).trans ?_
  show ((Wq f e : ℝ) : EReal) * Ideal.ofBits .f32 0x3D000000#32 = ((Wq f e * (1 / 32) : ℝ) : EReal)
  rw [ofBits_inv32]
  exact (EReal.coe_mul _ _).symm

theorem bq_term (bq : Fin 1024 → ℝ) (hb : S_.BroadcastsInDim S1024 (![] : Fin 0 → Fin S1024.rank)) :
    mulf (F := Ideal) (up1 bq) (broadcastInDim S1024 ![] hb (constant (F := Ideal) S_ .f32 0x3D000000#32))
      = up1 (bqsR bq) := by
  funext j
  show ((bq (j 0) : ℝ) : EReal) * Ideal.ofBits .f32 0x3D000000#32 = ((bq (j 0) * (1 / 32) : ℝ) : EReal)
  rw [ofBits_inv32]
  exact (EReal.coe_mul _ _).symm

theorem wkv_term (Wk Wv : Fin 1024 → Fin 1024 → ℝ)
    (hc : Shape.Concatenates [S1024x1024, S1024x1024] S2048x1024 0)
    (ht : S2048x1024.Transposes [1, 0] S1024x2048) (hl : FTy.bits .bf16 < FTy.bits .f32) :
    truncf (F := Ideal) .bf16
        (transpose S1024x2048 [1, 0]
          (concatenate S2048x1024 0 [⟨S1024x1024, up2 Wk⟩, ⟨S1024x1024, up2 Wv⟩] hc) ht) hl
      = up2 (WkvR Wk Wv) := by
  funext j
  obtain ⟨e, c, rfl⟩ : ∃ (e : Fin 1024) (c : Fin 2048), j = ix2 e c := ⟨j 0, j 1, eq_ix2 j⟩
  have hcl := c.isLt
  show transpose S1024x2048 [1, 0]
      (concatenate S2048x1024 0 [⟨S1024x1024, up2 Wk⟩, ⟨S1024x1024, up2 Wv⟩] hc) ht (ix2 e c) = _
  refine (transpose_ix2_apply _ ht e c).trans ?_
  by_cases hlt : c.val < 1024
  · refine (concatenate_pair_apply_left (0 : Fin S2048x1024.rank) (up2 Wk) (up2 Wv) hc (ix2 c e) rfl
      (ix2 ⟨c.val, hlt⟩ e) (fun b => match b with | ⟨0, _⟩ => rfl | ⟨1, _⟩ => rfl)).trans ?_
    show ((Wk ⟨c.val, hlt⟩ e : ℝ) : EReal) = ((WkvR Wk Wv e c : ℝ) : EReal)
    unfold WkvR
    rw [dif_pos hlt]
  · refine (concatenate_pair_apply_right (0 : Fin S2048x1024.rank) (up2 Wk) (up2 Wv) hc (ix2 c e) rfl rfl
      (ix2 ⟨c.val - 1024, by omega⟩ e)
      (fun b => match b with | ⟨0, _⟩ => fun hne => absurd rfl hne | ⟨1, _⟩ => fun _ => rfl) ?_).trans ?_
    · show c.val - 1024 + 1024 = c.val
      omega
    · show ((Wv ⟨c.val - 1024, _⟩ e : ℝ) : EReal) = ((WkvR Wk Wv e c : ℝ) : EReal)
      unfold WkvR
      rw [dif_neg hlt]

theorem bkv_term (bk bv : Fin 1024 → ℝ) (hc : Shape.Concatenates [S1024, S1024] S2048 0) :
    concatenate S2048 0 [⟨S1024, up1 bk⟩, ⟨S1024, up1 bv⟩] hc = up1 (bkvR bk bv) := by
  funext j
  obtain ⟨c, rfl⟩ : ∃ (c : Fin 2048), j = ix1 c := ⟨j 0, eq_ix1 j⟩
  have hcl := c.isLt
  by_cases hlt : c.val < 1024
  · refine (concatenate_pair_apply_left (0 : Fin S2048.rank) (up1 bk) (up1 bv) hc (ix1 c) rfl
      (ix1 ⟨c.val, hlt⟩) (fun b => match b with | ⟨0, _⟩ => rfl)).trans ?_
    show ((bk ⟨c.val, hlt⟩ : ℝ) : EReal) = ((bkvR bk bv c : ℝ) : EReal)
    unfold bkvR
    rw [dif_pos hlt]
  · refine (concatenate_pair_apply_right (0 : Fin S2048.rank) (up1 bk) (up1 bv) hc (ix1 c) rfl rfl
      (ix1 ⟨c.val - 1024, by omega⟩)
      (fun b => match b with | ⟨0, _⟩ => fun hne => absurd rfl hne) ?_).trans ?_
    · show c.val - 1024 + 1024 = c.val
      omega
    · show ((bv ⟨c.val - 1024, _⟩ : ℝ) : EReal) = ((bkvR bk bv c : ℝ) : EReal)
      unfold bkvR
      rw [dif_neg hlt]

theorem host0 (W : Valuation τ sig (Elt Ideal))
    (x : Fin 4 → Fin 2048 → Fin 1024 → ℝ) (Wq : Fin 1024 → Fin 1024 → ℝ) (bq : Fin 1024 → ℝ)
    (Wk : Fin 1024 → Fin 1024 → ℝ) (bk : Fin 1024 → ℝ) (Wv : Fin 1024 → Fin 1024 → ℝ) (bv : Fin 1024 → ℝ)
    (h0 : W (Proc.devRef .tc main_arg0) = up3 x) (h1 : W (Proc.devRef .tc main_arg1) = up2 Wq)
    (h2 : W (Proc.devRef .tc main_arg2) = up1 bq) (h3 : W (Proc.devRef .tc main_arg3) = up2 Wk)
    (h4 : W (Proc.devRef .tc main_arg4) = up1 bk) (h5 : W (Proc.devRef .tc main_arg5) = up2 Wv)
    (h6 : W (Proc.devRef .tc main_arg6) = up1 bv) :
    StableHlo.after (hostOps0 (F := Ideal)) W (Proc.devRef .tc main_v0) = up2 (x2R x)
    ∧ StableHlo.after (hostOps0 (F := Ideal)) W (Proc.devRef .tc main_v9) = up2 (WkvR Wk Wv)
    ∧ StableHlo.after (hostOps0 (F := Ideal)) W (Proc.devRef .tc main_v10) = up1 (bkvR bk bv)
    ∧ StableHlo.after (hostOps0 (F := Ideal)) W (Proc.devRef .tc main_v6) = up2 (WqtR Wq)
    ∧ StableHlo.after (hostOps0 (F := Ideal)) W (Proc.devRef .tc main_v4) = up1 (bqsR bq) := by
  refine ⟨?_, ?_, ?_, ?_, ?_⟩
  · after_results
    rw [h0]
    exact reshape_x x _
  · after_results
    rw [h3, h5]
    exact wkv_term Wk Wv _ _ _
  · after_results
    rw [h4, h6]
    exact bkv_term bk bv _
  · after_results
    rw [h1]
    exact wq_term Wq _ _ _
  · after_results
    rw [h2]
    exact bq_term bq _

theorem host1 (W : Valuation τ sig (Elt Ideal)) (kv2 : Fin 8192 → Fin 2048 → ℝ)
    (h : W (Proc.devRef .tc main_v11) = up2 kv2) :
    StableHlo.after (hostOps1 (F := Ideal)) W (Proc.devRef .tc main_v12) = up3 (kv3R kv2) := by
  after_results
  rw [h]
  exact reshape_kv kv2 _

end Cert.KernelIdeal.HV

end
-- ==== Proof.Bridge.lean ====
import proofs.«424806_j56435870269801_3_alg».proof.Proof.Spec
import Mathlib.Analysis.SpecialFunctions.Exp
import Mathlib.Algebra.BigOperators.Field

noncomputable section

open scoped BigOperators

namespace Cert.Attn

theorem x2R_row (x : Fin 4 → Fin 2048 → Fin 1024 → ℝ) (n : Fin 4) (s : Fin 2048) (e : Fin 1024)
    (h : n.val * 2048 + s.val < 8192) : x2R x ⟨n.val * 2048 + s.val, h⟩ e = x n s e := by
  have hn := n.isLt
  have hs := s.isLt
  have e1 : (n.val * 2048 + s.val) / 2048 = n.val := by omega
  have e2 : (n.val * 2048 + s.val) % 2048 = s.val := by omega
  unfold x2R
  congr 1
  all_goals first | exact Fin.ext e1 | exact Fin.ext e2

theorem kv_key (x : Fin 4 → Fin 2048 → Fin 1024 → ℝ) (Wk : Fin 1024 → Fin 1024 → ℝ) (bk : Fin 1024 → ℝ)
    (Wv : Fin 1024 → Fin 1024 → ℝ) (bv : Fin 1024 → ℝ) (n : Fin 4) (s : Fin 2048) (f : Fin 1024) :
    kv3R (kvproj (x2R x) (WkvR Wk Wv) (bkvR bk bv)) n s (Fin.castAdd 1024 f) = proj x Wk bk n s f := by
  have hf : (Fin.castAdd 1024 f).val < 1024 := by simp
  unfold kv3R kvproj proj
  congr 1
  · refine Finset.sum_congr rfl fun e _ => ?_
    rw [x2R_row]
    unfold WkvR
    rw [dif_pos hf]
    rfl
  · unfold bkvR
    rw [dif_pos hf]
    rfl

theorem kv_value (x : Fin 4 → Fin 2048 → Fin 1024 → ℝ) (Wk : Fin 1024 → Fin 1024 → ℝ) (bk : Fin 1024 → ℝ)
    (Wv : Fin 1024 → Fin 1024 → ℝ) (bv : Fin 1024 → ℝ) (n : Fin 4) (s : Fin 2048) (d : Fin 1024) :
    kv3R (kvproj (x2R x) (WkvR Wk Wv) (bkvR bk bv)) n s (Fin.natAdd 1024 d) = proj x Wv bv n s d := by
  have hd : ¬ (Fin.natAdd 1024 d).val < 1024 := by simp
  have hd' : (⟨(Fin.natAdd 1024 d).val - 1024, by simp⟩ : Fin 1024) = d := Fin.ext (by simp)
  unfold kv3R kvproj proj
  congr 1
  · refine Finset.sum_congr rfl fun e _ => ?_
    rw [x2R_row]
    unfold WkvR
    rw [dif_neg hd, hd']
  · unfold bkvR
    rw [dif_neg hd, hd']

theorem q_scaled (x : Fin 4 → Fin 2048 → Fin 1024 → ℝ) (Wq : Fin 1024 → Fin 1024 → ℝ) (bq : Fin 1024 → ℝ)
    (n : Fin 4) (q : Fin 2048) (f : Fin 1024) :
    (∑ e, x n q e * WqtR Wq e f) + bqsR bq f = proj x Wq bq n q f / 32 := by
  unfold WqtR bqsR proj
  rw [add_div, Finset.sum_div]
  congr 1
  · refine Finset.sum_congr rfl fun e _ => ?_
    ring
  · ring

theorem flash_eq_attn (x : Fin 4 → Fin 2048 → Fin 1024 → ℝ) (Wq : Fin 1024 → Fin 1024 → ℝ)
    (bq : Fin 1024 → ℝ) (Wk : Fin 1024 → Fin 1024 → ℝ) (bk : Fin 1024 → ℝ)
    (Wv : Fin 1024 → Fin 1024 → ℝ) (bv : Fin 1024 → ℝ) :
    flash x (WqtR Wq) (bqsR bq) (kv3R (kvproj (x2R x) (WkvR Wk Wv) (bkvR bk bv)))
      = attn x Wq bq Wk bk Wv bv := by
  have hS : (fun (n : Fin 4) (q k : Fin 2048) =>
        ∑ f : Fin 1024, ((∑ e, x n q e * WqtR Wq e f) + bqsR bq f)
          * kv3R (kvproj (x2R x) (WkvR Wk Wv) (bkvR bk bv)) n k (Fin.castAdd 1024 f))
      = score (proj x Wq bq) (proj x Wk bk) := by
    funext n q k
    unfold score
    rw [Finset.sum_div]
    refine Finset.sum_congr rfl fun f _ => ?_
    rw [q_scaled, kv_key]
    ring
  have hV : (fun (n : Fin 4) (k : Fin 2048) (d : Fin 1024) =>
        kv3R (kvproj (x2R x) (WkvR Wk Wv) (bkvR bk bv)) n k (Fin.natAdd 1024 d))
      = proj x Wv bv := by
    funext n k d
    exact kv_value x Wk bk Wv bv n k d
  funext n q d
  unfold flash attn
  rw [hS, hV]

end Cert.Attn

end
-- ==== Proof.KI.Value.lean ====
import proofs.«424806_j56435870269801_3_alg».proof.Proof.KI.Run
import proofs.«424806_j56435870269801_3_alg».proof.Proof.KI.R0Value
import proofs.«424806_j56435870269801_3_alg».proof.Proof.KI.R1Value
import proofs.«424806_j56435870269801_3_alg».proof.Proof.KI.Host
import proofs.«424806_j56435870269801_3_alg».proof.Proof.Bridge

noncomputable section

namespace Cert.KernelIdeal.HV

open Cert.KernelIdeal Cert.KernelIdeal.Gen Cert.KernelIdeal.H Cert.Attn
open Idealize.ShloMosaic Idealize.ShloMosaic.TcCoe Idealize.SL.Sem

theorem result_value (m : (ℓ : Loc nD τ sig) → Buf (Elt Ideal) ℓ) (c : Dev nD)
    (x : Fin 4 → Fin 2048 → Fin 1024 → ℝ) (Wq : Fin 1024 → Fin 1024 → ℝ) (bq : Fin 1024 → ℝ)
    (Wk : Fin 1024 → Fin 1024 → ℝ) (bk : Fin 1024 → ℝ) (Wv : Fin 1024 → Fin 1024 → ℝ) (bv : Fin 1024 → ℝ)
    (h0 : m ((c.tc : Thread nD τ).loc main_arg0) = up3 x) (h1 : m ((c.tc : Thread nD τ).loc main_arg1) = up2 Wq)
    (h2 : m ((c.tc : Thread nD τ).loc main_arg2) = up1 bq) (h3 : m ((c.tc : Thread nD τ).loc main_arg3) = up2 Wk)
    (h4 : m ((c.tc : Thread nD τ).loc main_arg4) = up1 bk) (h5 : m ((c.tc : Thread nD τ).loc main_arg5) = up2 Wv)
    (h6 : m ((c.tc : Thread nD τ).loc main_arg6) = up1 bv) :
    W4 m c (Proc.devRef .tc main_v13) = up3 (attn x Wq bq Wk bk Wv bv) := by
  obtain ⟨hv0, hv9, hv10, hv6, hv4⟩ := host0 (W0 m c) x Wq bq Wk bk Wv bv h0 h1 h2 h3 h4 h5 h6

  have hkv : W2 m c (Proc.devRef .tc main_v11) = up2 (kvproj (x2R x) (WkvR Wk Wv) (bkvR bk bv)) :=
    (W2_arr m c 3).trans (kv_final (V1 m) c (x2R x) (WkvR Wk Wv) (bkvR bk bv) hv0 hv9 hv10)

  have a12 : V3 m c main_v12 = up3 (kv3R (kvproj (x2R x) (WkvR Wk Wv) (bkvR bk bv))) := host1 (W2 m c) _ hkv
  have a0 : V3 m c main_arg0 = up3 x :=
    (W3_of m c main_arg0 (by decide)).trans ((W2_of_ne m c main_arg0 (by decide)).trans ((W1_of m c main_arg0 (by decide)).trans h0))
  have a6 : V3 m c main_v6 = up2 (WqtR Wq) :=
    (W3_of m c main_v6 (by decide)).trans ((W2_of_ne m c main_v6 (by decide)).trans hv6)
  have a4 : V3 m c main_v4 = up1 (bqsR bq) :=
    (W3_of m c main_v4 (by decide)).trans ((W2_of_ne m c main_v4 (by decide)).trans hv4)
  exact (result_eq m c).trans ((out_final (V3 m) c x (WqtR Wq) (bqsR bq) (kv3R (kvproj (x2R x) (WkvR Wk Wv) (bkvR bk bv))) a0 a6 a4 a12).trans
    (congrArg up3 (flash_eq_attn x Wq bq Wk bk Wv bv)))

end Cert.KernelIdeal.HV

end
-- ==== Proof.lean ====
/-
  Single-head attention by two kernels (a tiled projection packing keys and values; a blockwise attention carrying a
  running maximum, a running sum and an accumulator over the key tiles) against the plain softmax attention.
  On finite inputs both results are the lift of  out[n,q,d] = Σ_k softmax_k(Q Kᵀ / 32)[n,q,k] · V[n,k,d]:
  the blockwise recurrence telescopes to that sum, the factor 1/32 folded into the query weights comes out of the
  scores, and subtracting the row maximum does not change a softmax.
-/
import proofs.«424806_j56435870269801_3_alg».proof.Defs
import proofs.«424806_j56435870269801_3_alg».proof.Proof.Gen.Kernel
import proofs.«424806_j56435870269801_3_alg».proof.Proof.Gen.Kernel.Skeleton
import proofs.«424806_j56435870269801_3_alg».proof.Proof.Gen.Kernel.Launch
import proofs.«424806_j56435870269801_3_alg».proof.Proof.Gen.Kernel.Regions
import proofs.«424806_j56435870269801_3_alg».proof.Proof.Gen.Kernel.Points
import proofs.«424806_j56435870269801_3_alg».proof.Proof.Gen.KernelIdeal
import proofs.«424806_j56435870269801_3_alg».proof.Proof.Gen.KernelIdeal.Skeleton
import proofs.«424806_j56435870269801_3_alg».proof.Proof.Gen.KernelIdeal.Launch
import proofs.«424806_j56435870269801_3_alg».proof.Proof.Gen.KernelIdeal.Regions
import proofs.«424806_j56435870269801_3_alg».proof.Proof.Gen.KernelIdeal.Points
import proofs.«424806_j56435870269801_3_alg».proof.Proof.Gen.ReferenceIdeal
import proofs.«424806_j56435870269801_3_alg».proof.Proof.Gen.ReferenceIdeal.Run
import proofs.«424806_j56435870269801_3_alg».proof.Proof.Gen.Pre_finite_inputs
import proofs.«424806_j56435870269801_3_alg».proof.Proof.Finite
import proofs.«424806_j56435870269801_3_alg».proof.Proof.Ref
import proofs.«424806_j56435870269801_3_alg».proof.Proof.K.Run
import proofs.«424806_j56435870269801_3_alg».proof.Proof.KI.Run
import proofs.«424806_j56435870269801_3_alg».proof.Proof.KI.Value
import Idealize.ShloMosaic.Adequacy
import Idealize.ShloMosaic.Init

noncomputable section

namespace Cert.Proof

open Idealize.ShloMosaic Idealize.ShloMosaic.TcCoe Idealize.SL.Sem

theorem frame_Kernel : Cert.frame_Kernel :=
  fun m ρ _ => Cert.Kernel.H.frame (F := Bits) m ρ

theorem frame_KernelIdeal : Cert.frame_KernelIdeal :=
  fun m ρ _ => Cert.KernelIdeal.H.frame (F := Ideal) m ρ

theorem frame_ReferenceIdeal : Cert.frame_ReferenceIdeal :=
  fun m ρ _ => (θ_run Cert.ReferenceIdeal.defs _ _).mono (fun _ h c => (h c).2)
    (Cert.ReferenceIdeal.Value.run (F := Ideal) m ρ)

theorem algebraic : Cert.algebraic_KernelIdeal_ReferenceIdeal := by
  intro m ρ m' ρ' hpre hagree
  refine ⟨fun c => Cert.KernelIdeal.H.W4 m c (Proc.devRef .tc Cert.KernelIdeal.main_v13), ?_, ?_⟩
  · exact (θ_run Cert.KernelIdeal.defs _ _).mono (fun _ h c => by
      refine ⟨h c _ (Cert.KernelIdeal.H.mem_uc Cert.KernelIdeal.main_v13 (by decide)), ?_, ?_, ?_, ?_, ?_, ?_, ?_⟩ <;>
        exact (h c _ (Cert.KernelIdeal.H.mem_uc _ (by decide))).trans (Cert.KernelIdeal.H.W4_kept m c _ (by decide) (by decide) (by decide) (by decide)))
      (Cert.KernelIdeal.H.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨x, Wq, bq, Wk, bk, Wv, bv, h0, h1, h2, h3, h4, h5, h6⟩ :=
      Cert.Finite.reals_of_pre _ _ _ _ _ _ _ (hpre c)
    obtain ⟨g0, g1, g2, g3, g4, g5, g6⟩ := hagree c
    rw [Cert.ReferenceIdeal.RefValue.ref_value_run x Wq bq Wk bk Wv bv m' c
      (g0.trans h0) (g1.trans h1) (g2.trans h2) (g3.trans h3) (g4.trans h4) (g5.trans h5) (g6.trans h6)]
    exact (Cert.KernelIdeal.HV.result_value m c x Wq bq Wk bk Wv bv h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
